-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S50000 : Shape := ⟨1, ![50000]⟩
abbrev S50000x64 : Shape := ⟨2, ![50000, 64]⟩
abbrev S100000x384 : Shape := ⟨2, ![100000, 384]⟩
abbrev S1x64 : Shape := ⟨2, ![1, 64]⟩
abbrev S64 : Shape := ⟨1, ![64]⟩
abbrev S384x1280 : Shape := ⟨2, ![384, 1280]⟩
abbrev S384x128 : Shape := ⟨2, ![384, 128]⟩
abbrev S384 : Shape := ⟨1, ![384]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x384 : S_.BroadcastsInDim S100000x384 (![] : Fin 0 → Fin S100000x384.rank)
  reducesTo_S100000x384_S_d0_1 : S100000x384.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S384x1280 : S_.BroadcastsInDim S384x1280 (![] : Fin 0 → Fin S384x1280.rank)
  reducesTo_S384x1280_S_d0_1 : S384x1280.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg13 : FVec F S384 .f32) (main_v33 : IVec S_ 1) : IVec S_ 1 :=
  let main_v34 : FVec F S384 .f32 := Host.absf main_arg13
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg10 : FVec F S384x1280 .f32) (main_arg11 : FVec F S384x128 .f32) (main_arg12 : FVec F S384 .f32) (main_arg13 : FVec F S384 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S384x1280 .f32 := Host.absf main_arg10
  let main_cst_6 : FVec F S_ .f32 := constant S_ .f32 0x7F800000#32
  let main_v20 : FVec F S384x1280 .f32 := broadcastInDim S384x1280 ![] bcast_S_S384x1280 main_cst_6
  let main_v21 : IVec S384x1280 1 := cmpf .olt main_v19 main_v20
  let main_c_7 : IVec S_ 1 := constantI S_ 1 1#1
  let main_v22 : IVec S_ 1 := (fun x v => Host.reduce IntOp.andi x v reducesTo_S384x1280_S_d0_1 h_S_) main_v21 main_c_7
  let main_v23 : IVec S_ 1 := andi main_v18 main_v22
  let main_v24 : FVec F S384x128 .f32 := Host.absf main_arg11
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg12
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg13 main_v33

def fn {F : FTy → Type} [FloatOps F] (main_arg0 : IVec S100000 32) (main_arg1 : IVec S50000 32) (main_arg2 : IVec S50000 32) (main_arg3 : IVec S50000 32) (main_arg4 : IVec S50000 32) (main_arg5 : FVec F S50000x64 .f32) (main_arg6 : FVec F S100000x384 .f32) (main_arg7 : IVec S100000 32) (main_arg8 : FVec F S1x64 .f32) (main_arg9 : FVec F S64 .f32) (main_arg10 : FVec F S384x1280 .f32) (main_arg11 : FVec F S384x128 .f32) (main_arg12 : FVec F S384 .f32) (main_arg13 : FVec F S384 .f32) : IVec S_ 1 :=
  let main_v0 : FVec F S50000x64 .f32 := Host.absf main_arg5
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x384 .f32 := Host.absf main_arg6
  let main_cst_0 : FVec F S_ .f32 := constant S_ .f32 0x7F800000#32
  let main_v5 : FVec F S100000x384 .f32 := broadcastInDim S100000x384 ![] bcast_S_S100000x384 main_cst_0
  let main_v6 : IVec S100000x384 1 := cmpf .olt main_v4 main_v5
  let main_c_1 : IVec S_ 1 := constantI S_ 1 1#1
  let main_v7 : IVec S_ 1 := (fun x v => Host.reduce IntOp.andi x v reducesTo_S100000x384_S_d0_1 h_S_) main_v6 main_c_1
  let main_v8 : IVec S_ 1 := andi main_v3 main_v7
  let main_v9 : FVec F S1x64 .f32 := Host.absf main_arg8
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg10 main_arg11 main_arg12 main_arg13 main_v13 main_v16
-- ==== Kernel.lean ====
abbrev S100000 : Shape := ⟨1, ![100000]⟩
abbrev S50000 : Shape := ⟨1, ![50000]⟩
abbrev S50000x64 : Shape := ⟨2, ![50000, 64]⟩
abbrev S100000x384 : Shape := ⟨2, ![100000, 384]⟩
abbrev S1x64 : Shape := ⟨2, ![1, 64]⟩
abbrev S64 : Shape := ⟨1, ![64]⟩
abbrev S384x1280 : Shape := ⟨2, ![384, 1280]⟩
abbrev S384x128 : Shape := ⟨2, ![384, 128]⟩
abbrev S384 : Shape := ⟨1, ![384]⟩
abbrev S_ : Shape := ⟨0, ![]⟩
abbrev S50000x1 : Shape := ⟨2, ![50000, 1]⟩
abbrev S50000x384 : Shape := ⟨2, ![50000, 384]⟩
abbrev S1280x384 : Shape := ⟨2, ![1280, 384]⟩
abbrev S384x384 : Shape := ⟨2, ![384, 384]⟩
abbrev S64x384 : Shape := ⟨2, ![64, 384]⟩
abbrev S1000x384 : Shape := ⟨2, ![1000, 384]⟩
abbrev S1000x64 : Shape := ⟨2, ![1000, 64]⟩
abbrev S1000x1 : Shape := ⟨2, ![1000, 1]⟩
abbrev S100000x1 : Shape := ⟨2, ![100000, 1]⟩
abbrev S150000 : Shape := ⟨1, ![150000]⟩
abbrev S150000x1 : Shape := ⟨2, ![150000, 1]⟩
abbrev S150000x384 : Shape := ⟨2, ![150000, 384]⟩
abbrev S128x384 : Shape := ⟨2, ![128, 384]⟩
abbrev S1x384 : Shape := ⟨2, ![1, 384]⟩
abbrev S2000x384 : Shape := ⟨2, ![2000, 384]⟩
abbrev S2000x1 : Shape := ⟨2, ![2000, 1]⟩
abbrev S2000x128 : Shape := ⟨2, ![2000, 128]⟩
abbrev S2000x256 : Shape := ⟨2, ![2000, 256]⟩

abbrev nBuf : Space → Nat
  | .hbm => 155
  | .vmem => 30
  | .smem => 0
  | _ => 0

abbrev hbmTy0_0 (i : Nat) : BufTy := match i % 128 with
  | 0 => ⟨S100000, .i32⟩
  | 1 => ⟨S50000, .i32⟩
  | 2 => ⟨S50000, .i32⟩
  | 3 => ⟨S50000, .i32⟩
  | 4 => ⟨S50000, .i32⟩
  | 5 => ⟨S50000x64, .f32⟩
  | 6 => ⟨S100000x384, .f32⟩
  | 7 => ⟨S100000, .i32⟩
  | 8 => ⟨S1x64, .f32⟩
  | 9 => ⟨S64, .f32⟩
  | 10 => ⟨S384x1280, .f32⟩
  | 11 => ⟨S384x128, .f32⟩
  | 12 => ⟨S384, .f32⟩
  | 13 => ⟨S384, .f32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S50000x384, .f32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x384, .f32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x384, .f32⟩
  | 41 => ⟨S_, .i32⟩
  | 42 => ⟨S50000, .i32⟩
  | 43 => ⟨S50000, .i1⟩
  | 44 => ⟨S_, .i32⟩
  | 45 => ⟨S50000, .i32⟩
  | 46 => ⟨S50000, .i32⟩
  | 47 => ⟨S50000, .i32⟩
  | 48 => ⟨S50000x1, .i32⟩
  | 49 => ⟨S50000, .i32⟩
  | 50 => ⟨S50000, .i32⟩
  | 51 => ⟨S50000, .f32⟩
  | 52 => ⟨S50000x1, .f32⟩
  | 53 => ⟨S1x64, .f32⟩
  | 54 => ⟨S1280x384, .f32⟩
  | 55 => ⟨S384x384, .f32⟩
  | 56 => ⟨S384x384, .bf16⟩
  | 57 => ⟨S384x384, .f32⟩
  | 58 => ⟨S384x384, .bf16⟩
  | 59 => ⟨S384x384, .f32⟩
  | 60 => ⟨S384x384, .bf16⟩
  | 61 => ⟨S64x384, .f32⟩
  | 62 => ⟨S64x384, .bf16⟩
  | 63 => ⟨S64x384, .f32⟩
  | 64 => ⟨S64x384, .bf16⟩
  | 65 => ⟨S50000x384, .f32⟩
  | 66 => ⟨S_, .i32⟩
  | 67 => ⟨S100000, .i32⟩
  | 68 => ⟨S100000, .i32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000, .i32⟩
  | 78 => ⟨S150000, .i32⟩
  | 79 => ⟨S_, .i32⟩
  | 80 => ⟨S150000, .i32⟩
  | 81 => ⟨S150000, .i1⟩
  | 82 => ⟨S_, .i32⟩
  | 83 => ⟨S150000, .i32⟩
  | 84 => ⟨S150000, .i32⟩
  | 85 => ⟨S150000, .i32⟩
  | 86 => ⟨S150000x1, .i32⟩
  | 87 => ⟨S150000, .i32⟩
  | 88 => ⟨S150000x384, .f32⟩
  | 89 => ⟨S_, .f32⟩
  | 90 => ⟨S100000x384, .f32⟩
  | 91 => ⟨S_, .i32⟩
  | 92 => ⟨S150000, .i32⟩
  | 93 => ⟨S150000, .i1⟩
  | 94 => ⟨S_, .i32⟩
  | 95 => ⟨S150000, .i32⟩
  | 96 => ⟨S150000, .i32⟩
  | 97 => ⟨S150000, .i32⟩
  | 98 => ⟨S150000x1, .i32⟩
  | 99 => ⟨S100000x384, .f32⟩
  | 100 => ⟨S_, .f32⟩
  | 101 => ⟨S100000, .f32⟩
  | 102 => ⟨S_, .f32⟩
  | 103 => ⟨S150000, .f32⟩
  | 104 => ⟨S_, .i32⟩
  | 105 => ⟨S150000, .i32⟩
  | 106 => ⟨S150000, .i1⟩
  | 107 => ⟨S_, .i32⟩
  | 108 => ⟨S150000, .i32⟩
  | 109 => ⟨S150000, .i32⟩
  | 110 => ⟨S150000, .i32⟩
  | 111 => ⟨S150000x1, .i32⟩
  | 112 => ⟨S100000, .f32⟩
  | 113 => ⟨S_, .f32⟩
  | 114 => ⟨S100000, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S150000, .i32⟩
  | 121 => ⟨S_, .i32⟩
  | 122 => ⟨S100000, .i32⟩
  | 123 => ⟨S_, .i32⟩
  | 124 => ⟨S150000, .i32⟩
  | 125 => ⟨S150000, .i1⟩
  | 126 => ⟨S_, .i32⟩
  | 127 => ⟨S150000, .i32⟩
  | _ => ⟨S100000, .i32⟩

abbrev hbmTy0_1 (i : Nat) : BufTy := match i % 128 with
  | 0 => ⟨S150000, .i32⟩
  | 1 => ⟨S150000, .i32⟩
  | 2 => ⟨S150000x1, .i32⟩
  | 3 => ⟨S100000, .i32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x384, .f32⟩
  | 22 => ⟨S128x384, .f32⟩
  | 23 => ⟨S128x384, .bf16⟩
  | 24 => ⟨S1x384, .f32⟩
  | 25 => ⟨S1x384, .f32⟩
  | 26 => ⟨S100000x384, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S1000x384, .f32⟩
  | .local _ .vmem, ⟨1, _⟩ => ⟨S1000x384, .f32⟩
  | .local _ .vmem, ⟨2, _⟩ => ⟨S1000x384, .f32⟩
  | .local _ .vmem, ⟨3, _⟩ => ⟨S1000x384, .f32⟩
  | .local _ .vmem, ⟨4, _⟩ => ⟨S1000x384, .f32⟩
  | .local _ .vmem, ⟨5, _⟩ => ⟨S1000x384, .f32⟩
  | .local _ .vmem, ⟨6, _⟩ => ⟨S1000x64, .f32⟩
  | .local _ .vmem, ⟨7, _⟩ => ⟨S1000x64, .f32⟩
  | .local _ .vmem, ⟨8, _⟩ => ⟨S1000x1, .f32⟩
  | .local _ .vmem, ⟨9, _⟩ => ⟨S1000x1, .f32⟩
  | .local _ .vmem, ⟨10, _⟩ => ⟨S384x384, .bf16⟩
  | .local _ .vmem, ⟨11, _⟩ => ⟨S384x384, .bf16⟩
  | .local _ .vmem, ⟨12, _⟩ => ⟨S384x384, .bf16⟩
  | .local _ .vmem, ⟨13, _⟩ => ⟨S64x384, .bf16⟩
  | .local _ .vmem, ⟨14, _⟩ => ⟨S64x384, .bf16⟩
  | .local _ .vmem, ⟨15, _⟩ => ⟨S1x64, .f32⟩
  | .local _ .vmem, ⟨16, _⟩ => ⟨S1x64, .f32⟩
  | .local _ .vmem, ⟨17, _⟩ => ⟨S1000x384, .f32⟩
  | .local _ .vmem, ⟨18, _⟩ => ⟨S1000x384, .f32⟩
  | .local _ .vmem, ⟨19, _⟩ => ⟨S2000x384, .f32⟩
  | .local _ .vmem, ⟨20, _⟩ => ⟨S2000x384, .f32⟩
  | .local _ .vmem, ⟨21, _⟩ => ⟨S2000x1, .f32⟩
  | .local _ .vmem, ⟨22, _⟩ => ⟨S2000x1, .f32⟩
  | .local _ .vmem, ⟨23, _⟩ => ⟨S2000x384, .f32⟩
  | .local _ .vmem, ⟨24, _⟩ => ⟨S2000x384, .f32⟩
  | .local _ .vmem, ⟨25, _⟩ => ⟨S128x384, .bf16⟩
  | .local _ .vmem, ⟨26, _⟩ => ⟨S1x384, .f32⟩
  | .local _ .vmem, ⟨27, _⟩ => ⟨S1x384, .f32⟩
  | .local _ .vmem, ⟨28, _⟩ => ⟨S2000x384, .f32⟩
  | .local _ .vmem, ⟨29, _⟩ => ⟨S2000x384, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_18 : Ref sig .tc := ⟨.hbm, 113, rfl⟩
abbrev main_v79 : Ref sig .tc := ⟨.hbm, 114, rfl⟩
abbrev main_v80 : Ref sig .tc := ⟨.hbm, 115, rfl⟩
abbrev main_cst_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_c_21 : Ref sig .tc := ⟨.hbm, 123, rfl⟩
abbrev main_v86 : Ref sig .tc := ⟨.hbm, 124, rfl⟩
abbrev main_v87 : Ref sig .tc := ⟨.hbm, 125, rfl⟩
abbrev main_c_22 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_23 : Ref sig .tc := ⟨.hbm, 132, rfl⟩
abbrev main_v93 : Ref sig .tc := ⟨.hbm, 133, rfl⟩
abbrev main_v94 : Ref sig .tc := ⟨.hbm, 134, rfl⟩
abbrev main_c_24 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_25 : Ref sig .tc := ⟨.hbm, 141, rfl⟩
abbrev main_v100 : Ref sig .tc := ⟨.hbm, 142, rfl⟩
abbrev main_v101 : Ref sig .tc := ⟨.hbm, 143, rfl⟩
abbrev main_c_26 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  shapeCasts_S50000_S50000x1 : S50000.ShapeCasts S50000x1
  shapeCasts_S64_S1x64 : S64.ShapeCasts S1x64
  transposes_S384x1280_S1280x384_1_0 : S384x1280.Transposes [1, 0] S1280x384
  slices_S1280x384_S384x384_0_0 : S1280x384.Slices ![0, 0] S384x384
  bitsLt_bf16_f32 : FTy.bits .bf16 < FTy.bits .f32
  slices_S1280x384_S384x384_384_0 : S1280x384.Slices ![384, 0] S384x384
  slices_S1280x384_S384x384_768_0 : S1280x384.Slices ![768, 0] S384x384
  slices_S1280x384_S64x384_1152_0 : S1280x384.Slices ![1152, 0] S64x384
  slices_S1280x384_S64x384_1216_0 : S1280x384.Slices ![1216, 0] S64x384
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  inb_S1000x64_S1000x64_0_0 : ∀ a, (![0, 0] : Fin 2 → Nat) a + S1000x64.size a ≤ S1000x64.size a
  h_S1000x64 : 0 < S1000x64.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x64_S1x64_0_0 : ∀ a, (![0, 0] : Fin 2 → Nat) a + S1x64.size a ≤ S1x64.size a
  h_S1x64 : 0 < S1x64.numel
  broadcasts_S1000x1_S1000x64 : S1000x1.Broadcasts S1000x64
  broadcasts_S1x64_S1000x64 : S1x64.Broadcasts S1000x64
  shapeCasts_S1x64_S1x64 : S1x64.ShapeCasts S1x64
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S64x384_S64x384_0_0 : ∀ a, (![0, 0] : Fin 2 → Nat) a + S64x384.size a ≤ S64x384.size a
  h_S64x384 : 0 < S64x384.numel
  shapeCasts_S64x384_S64x384 : S64x384.ShapeCasts S64x384
  bcast_S_S100000 : S_.BroadcastsInDim S100000 (![] : Fin 0 → Fin S100000.rank)
  bcast_S100000_S100000x1_0 : S100000.BroadcastsInDim S100000x1 (![0] : Fin 1 → Fin S100000x1.rank)
  concatenates_S50000_S50000_S50000_S150000_d0 : Shape.Concatenates [S50000, S50000, S50000] S150000 0
  bcast_S_S150000 : S_.BroadcastsInDim S150000 (![] : Fin 0 → Fin S150000.rank)
  bcast_S150000_S150000x1_0 : S150000.BroadcastsInDim S150000x1 (![0] : Fin 1 → Fin S150000x1.rank)
  concatenates_S50000x384_S50000x384_S50000x384_S150000x384_d0 : Shape.Concatenates [S50000x384, S50000x384, S50000x384] S150000x384 0
  bcast_S_S100000x384 : S_.BroadcastsInDim S100000x384 (![] : Fin 0 → Fin S100000x384.rank)
  shapeCasts_S100000_S100000x1 : S100000.ShapeCasts S100000x1
  transposes_S384x128_S128x384_1_0 : S384x128.Transposes [1, 0] S128x384
  shapeCasts_S384_S1x384 : S384.ShapeCasts S1x384
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x384 : S2000x1.Broadcasts S2000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x128_0_0 : ∀ a, (![0, 0] : Fin 2 → Nat) a + S2000x128.size a ≤ S2000x384.size a
  h_S2000x128 : 0 < S2000x128.numel
  shapeCasts_S2000x128_S2000x128 : S2000x128.ShapeCasts S2000x128
  inb_S2000x384_S2000x256_0_128 : ∀ a, (![0, 128] : Fin 2 → Nat) a + S2000x256.size a ≤ S2000x384.size a
  h_S2000x256 : 0 < S2000x256.numel
  shapeCasts_S2000x256_S2000x256 : S2000x256.ShapeCasts S2000x256
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S100000x384_S50000x1_S50000x384_1_0_n_n_0_1_1384_wf : GatherDims.WF S100000x384 S50000x1 S50000x384 [1] [0] [] [0] [] 1 ![1, 384]
  gather_S100000_S50000x1_S50000_n_0_n_n_0_1_1_wf : GatherDims.WF S100000 S50000x1 S50000 [] [0] [] [0] [] 1 ![1]
  dot_S1000x384_S384x384_S1000x384_1_0_0_1_n_n_wf : DotDims.WF S1000x384 S384x384 S1000x384 [1] [0] [0] [1] [] []
  dot_S1000x64_S64x384_S1000x384_1_0_0_1_n_n_wf : DotDims.WF S1000x64 S64x384 S1000x384 [1] [0] [0] [1] [] []
  scatter_S100000_S100000x1_S100000_n_0_0_1_wf : ScatterDims.WF S100000 S100000x1 S100000 [] [0] [0] 1
  gather_S100000_S150000x1_S150000_n_0_n_n_0_1_1_wf : GatherDims.WF S100000 S150000x1 S150000 [] [0] [] [0] [] 1 ![1]
  scatter_S100000x384_S150000x1_S150000x384_1_0_0_1_wf : ScatterDims.WF S100000x384 S150000x1 S150000x384 [1] [0] [0] 1
  scatter_S100000_S150000x1_S150000_n_0_0_1_wf : ScatterDims.WF S100000 S150000x1 S150000 [] [0] [0] 1
  gather_S100000_S100000x1_S100000_n_0_n_n_0_1_1_wf : GatherDims.WF S100000 S100000x1 S100000 [] [0] [] [0] [] 1 ![1]
  gather_S100000x384_S100000x1_S100000x384_1_0_n_n_0_1_1384_wf : GatherDims.WF S100000x384 S100000x1 S100000x384 [1] [0] [] [0] [] 1 ![1, 384]
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x384.size a ≤ S50000x384.size a
  hwx0_0 : ∀ i : grid0.Coords, EltTy.bits .f32 = 32 ∨ (Rect.block (s := S50000x384) S1000x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x384.size a ≤ S50000x384.size a
  hwx0_1 : ∀ i : grid0.Coords, EltTy.bits .f32 = 32 ∨ (Rect.block (s := S50000x384) S1000x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x384.size a ≤ S50000x384.size a
  hwx0_2 : ∀ i : grid0.Coords, EltTy.bits .f32 = 32 ∨ (Rect.block (s := S50000x384) S1000x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S50000x1.size a
  hwx0_4 : ∀ i : grid0.Coords, EltTy.bits .f32 = 32 ∨ (Rect.block (s := S50000x1) S1000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .bf16 = 32 ∨ (Rect.block (s := S384x384) S384x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x384.size a ≤ S384x384.size a
  hwx0_6 : ∀ i : grid0.Coords, EltTy.bits .bf16 = 32 ∨ (Rect.block (s := S384x384) S384x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x384.size a ≤ S384x384.size a
  hwx0_7 : ∀ i : grid0.Coords, EltTy.bits .bf16 = 32 ∨ (Rect.block (s := S384x384) S384x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x384.size a ≤ S64x384.size a
  hwx0_8 : ∀ i : grid0.Coords, EltTy.bits .bf16 = 32 ∨ (Rect.block (s := S64x384) S64x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x384.size a ≤ S64x384.size a
  hwx0_9 : ∀ i : grid0.Coords, EltTy.bits .bf16 = 32 ∨ (Rect.block (s := S64x384) S64x384.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x384.size a ≤ S50000x384.size a
  hwx0_12 : ∀ i : grid0.Coords, EltTy.bits .f32 = 32 ∨ (Rect.block (s := S50000x384) S1000x384.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S100000x384.size a
  hwx1_0 : ∀ i : grid1.Coords, EltTy.bits .f32 = 32 ∨ (Rect.block (s := S100000x384) S2000x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x384.size a ≤ S100000x384.size a
  hwx1_2 : ∀ i : grid1.Coords, EltTy.bits .f32 = 32 ∨ (Rect.block (s := S100000x384) S2000x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .bf16 = 32 ∨ (Rect.block (s := S128x384) S128x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x384.size a ≤ S100000x384.size a
  hwx1_6 : ∀ i : grid1.Coords, EltTy.bits .f32 = 32 ∨ (Rect.block (s := S100000x384) S2000x384.size (cc1_transform_6 i) (hinb1_6 i)).WholeWords (EltTy.packing .f32)

variable [Facts₀]

def gather_S100000x384_S50000x1_S50000x384_1_0_n_n_0_1_1384 : GatherDims S100000x384 S50000x1 S50000x384 where
  offsetDims := [1]
  collapsedSliceDims := [0]
  operandBatchingDims := []
  startIndicesBatchingDims := []
  startIndexMap := [0]
  indexVectorDim := 1
  sliceSizes := ![1, 384]
  wf := gather_S100000x384_S50000x1_S50000x384_1_0_n_n_0_1_1384_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf
def dot_S1000x384_S384x384_S1000x384_1_0_0_1_n_n : DotDims S1000x384 S384x384 S1000x384 where
  lhsContracting := [1]
  rhsContracting := [0]
  lhsNonContracting := [0]
  rhsNonContracting := [1]
  lhsBatch := []
  rhsBatch := []
  wf := dot_S1000x384_S384x384_S1000x384_1_0_0_1_n_n_wf
def dot_S1000x64_S64x384_S1000x384_1_0_0_1_n_n : DotDims S1000x64 S64x384 S1000x384 where
  lhsContracting := [1]
  rhsContracting := [0]
  lhsNonContracting := [0]
  rhsNonContracting := [1]
  lhsBatch := []
  rhsBatch := []
  wf := dot_S1000x64_S64x384_S1000x384_1_0_0_1_n_n_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000_S150000x1_S150000_n_0_n_n_0_1_1 : GatherDims S100000 S150000x1 S150000 where
  offsetDims := []
  collapsedSliceDims := [0]
  operandBatchingDims := []
  startIndicesBatchingDims := []
  startIndexMap := [0]
  indexVectorDim := 1
  sliceSizes := ![1]
  wf := gather_S100000_S150000x1_S150000_n_0_n_n_0_1_1_wf
def scatter_S100000x384_S150000x1_S150000x384_1_0_0_1 : ScatterDims S100000x384 S150000x1 S150000x384 where
  updateWindowDims := [1]
  insertedWindowDims := [0]
  scatterDimsToOperandDims := [0]
  indexVectorDim := 1
  wf := scatter_S100000x384_S150000x1_S150000x384_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x384_S100000x1_S100000x384_1_0_n_n_0_1_1384 : GatherDims S100000x384 S100000x1 S100000x384 where
  offsetDims := [1]
  collapsedSliceDims := [0]
  operandBatchingDims := []
  startIndicesBatchingDims := []
  startIndexMap := [0]
  indexVectorDim := 1
  sliceSizes := ![1, 384]
  wf := gather_S100000x384_S100000x1_S100000x384_1_0_n_n_0_1_1384_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v6) S1000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1000x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34) S384x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S384x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S384x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S64x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S64x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v43) S1000x384.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v69) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v83) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v106) S2000x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v108) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v109) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v110) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v111) S2000x384.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where
  halias1_6 : Pipeline.Aliased win1 2 6

variable [Facts]
-- ==== ReferenceIdeal.lean ====
abbrev S100000 : Shape := ⟨1, ![100000]⟩
abbrev S50000 : Shape := ⟨1, ![50000]⟩
abbrev S50000x64 : Shape := ⟨2, ![50000, 64]⟩
abbrev S100000x384 : Shape := ⟨2, ![100000, 384]⟩
abbrev S1x64 : Shape := ⟨2, ![1, 64]⟩
abbrev S64 : Shape := ⟨1, ![64]⟩
abbrev S384x1280 : Shape := ⟨2, ![384, 1280]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S100000x2 : Shape := ⟨2, ![100000, 2]⟩
abbrev S100000x128 : Shape := ⟨2, ![100000, 128]⟩
abbrev S100000x256 : Shape := ⟨2, ![100000, 256]⟩
abbrev S50000x1 : Shape := ⟨2, ![50000, 1]⟩
abbrev S50000x384 : Shape := ⟨2, ![50000, 384]⟩
abbrev S50000x1280 : Shape := ⟨2, ![50000, 1280]⟩
abbrev S150000 : Shape := ⟨1, ![150000]⟩
abbrev S150000x1 : Shape := ⟨2, ![150000, 1]⟩
abbrev S150000x1280 : Shape := ⟨2, ![150000, 1280]⟩
abbrev S100000x1280 : Shape := ⟨2, ![100000, 1280]⟩
abbrev S1280x384 : Shape := ⟨2, ![1280, 384]⟩
abbrev S1x384 : Shape := ⟨2, ![1, 384]⟩
abbrev S128x384 : Shape := ⟨2, ![128, 384]⟩

abbrev nBuf : Space → Nat
  | .hbm => 187
  | .vmem => 0
  | .smem => 0
  | _ => 0

abbrev hbmTy0_0 (i : Nat) : BufTy := match i % 128 with
  | 0 => ⟨S100000, .i32⟩
  | 1 => ⟨S50000, .i32⟩
  | 2 => ⟨S50000, .i32⟩
  | 3 => ⟨S50000, .i32⟩
  | 4 => ⟨S50000, .i32⟩
  | 5 => ⟨S50000x64, .f32⟩
  | 6 => ⟨S100000x384, .f32⟩
  | 7 => ⟨S100000, .i32⟩
  | 8 => ⟨S1x64, .f32⟩
  | 9 => ⟨S64, .f32⟩
  | 10 => ⟨S384x1280, .f32⟩
  | 11 => ⟨S384x128, .f32⟩
  | 12 => ⟨S384, .f32⟩
  | 13 => ⟨S384, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S_, .i32⟩
  | 23 => ⟨S100000x1, .i32⟩
  | 24 => ⟨S100000x2, .i32⟩
  | 25 => ⟨S100000x128, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S_, .i32⟩
  | 35 => ⟨S100000x1, .i32⟩
  | 36 => ⟨S100000x2, .i32⟩
  | 37 => ⟨S100000x256, .f32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S50000, .i32⟩
  | 47 => ⟨S50000, .i32⟩
  | 48 => ⟨S50000, .f32⟩
  | 49 => ⟨S50000x1, .f32⟩
  | 50 => ⟨S50000x64, .f32⟩
  | 51 => ⟨S1x64, .f32⟩
  | 52 => ⟨S50000x64, .f32⟩
  | 53 => ⟨S50000x64, .f32⟩
  | 54 => ⟨S50000x64, .f32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x384, .f32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000x384, .f32⟩
  | 73 => ⟨S_, .i32⟩
  | 74 => ⟨S50000, .i32⟩
  | 75 => ⟨S50000, .i1⟩
  | 76 => ⟨S_, .i32⟩
  | 77 => ⟨S50000, .i32⟩
  | 78 => ⟨S50000, .i32⟩
  | 79 => ⟨S50000, .i32⟩
  | 80 => ⟨S50000x1, .i32⟩
  | 81 => ⟨S50000x384, .f32⟩
  | 82 => ⟨S50000x1280, .f32⟩
  | 83 => ⟨S_, .i32⟩
  | 84 => ⟨S100000, .i32⟩
  | 85 => ⟨S100000, .i32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000, .i32⟩
  | 95 => ⟨S150000, .i32⟩
  | 96 => ⟨S_, .i32⟩
  | 97 => ⟨S150000, .i32⟩
  | 98 => ⟨S150000, .i1⟩
  | 99 => ⟨S_, .i32⟩
  | 100 => ⟨S150000, .i32⟩
  | 101 => ⟨S150000, .i32⟩
  | 102 => ⟨S150000, .i32⟩
  | 103 => ⟨S150000x1, .i32⟩
  | 104 => ⟨S150000, .i32⟩
  | 105 => ⟨S150000x1280, .f32⟩
  | 106 => ⟨S150000, .i32⟩
  | 107 => ⟨S_, .f32⟩
  | 108 => ⟨S100000x1280, .f32⟩
  | 109 => ⟨S150000x1, .i32⟩
  | 110 => ⟨S100000x1280, .f32⟩
  | 111 => ⟨S_, .f32⟩
  | 112 => ⟨S150000, .f32⟩
  | 113 => ⟨S_, .f32⟩
  | 114 => ⟨S100000, .f32⟩
  | 115 => ⟨S150000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x1280, .f32⟩
  | 122 => ⟨S100000x1280, .f32⟩
  | 123 => ⟨S1280x384, .f32⟩
  | 124 => ⟨S100000x384, .f32⟩
  | 125 => ⟨S1x384, .f32⟩
  | 126 => ⟨S100000x384, .f32⟩
  | 127 => ⟨S100000x384, .f32⟩
  | _ => ⟨S100000, .i32⟩

abbrev hbmTy0_1 (i : Nat) : BufTy := match i % 128 with
  | 0 => ⟨S128x384, .f32⟩
  | 1 => ⟨S100000x384, .f32⟩
  | 2 => ⟨S1x384, .f32⟩
  | 3 => ⟨S100000x384, .f32⟩
  | 4 => ⟨S100000x384, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S100000x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S100000x128, .f32⟩
  | 37 => ⟨S100000x128, .f32⟩
  | 38 => ⟨S100000x384, .f32⟩
  | 39 => ⟨S_, .i32⟩
  | 40 => ⟨S100000, .i32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000, .i32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_c_17 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_cst_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_21 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_23 : Ref sig .tc := ⟨.hbm, 151, rfl⟩
abbrev main_v112 : Ref sig .tc := ⟨.hbm, 152, rfl⟩
abbrev main_v113 : Ref sig .tc := ⟨.hbm, 153, rfl⟩
abbrev main_cst_24 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_25 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_26 : Ref sig .tc := ⟨.hbm, 167, rfl⟩
abbrev main_v125 : Ref sig .tc := ⟨.hbm, 168, rfl⟩
abbrev main_c_27 : Ref sig .tc := ⟨.hbm, 169, rfl⟩
abbrev main_v126 : Ref sig .tc := ⟨.hbm, 170, rfl⟩
abbrev main_v127 : Ref sig .tc := ⟨.hbm, 171, rfl⟩
abbrev main_c_28 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_29 : Ref sig .tc := ⟨.hbm, 178, rfl⟩
abbrev main_v133 : Ref sig .tc := ⟨.hbm, 179, rfl⟩
abbrev main_v134 : Ref sig .tc := ⟨.hbm, 180, rfl⟩
abbrev main_c_30 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  concatenates_S100000x1_S100000x1_S100000x2_d1 : Shape.Concatenates [S100000x1, S100000x1] S100000x2 1
  bcast_S_S50000 : S_.BroadcastsInDim S50000 (![] : Fin 0 → Fin S50000.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x384_S50000x384_S50000x384_S50000x64_S50000x64_S50000x1280_d1 : Shape.Concatenates [S50000x384, S50000x384, S50000x384, S50000x64, S50000x64] S50000x1280 1
  concatenates_S50000_S50000_S50000_S150000_d0 : Shape.Concatenates [S50000, S50000, S50000] S150000 0
  bcast_S_S150000 : S_.BroadcastsInDim S150000 (![] : Fin 0 → Fin S150000.rank)
  bcast_S150000_S150000x1_0 : S150000.BroadcastsInDim S150000x1 (![0] : Fin 1 → Fin S150000x1.rank)
  concatenates_S50000x1280_S50000x1280_S50000x1280_S150000x1280_d0 : Shape.Concatenates [S50000x1280, S50000x1280, S50000x1280] S150000x1280 0
  bcast_S_S100000x1280 : S_.BroadcastsInDim S100000x1280 (![] : Fin 0 → Fin S100000x1280.rank)
  bcast_S100000x1_S100000x1280_0_1 : S100000x1.BroadcastsInDim S100000x1280 (![0, 1] : Fin 2 → Fin S100000x1280.rank)
  transposes_S384x1280_S1280x384_1_0 : S384x1280.Transposes [1, 0] S1280x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  transposes_S384x128_S128x384_1_0 : S384x128.Transposes [1, 0] S128x384
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  concatenates_S100000x128_S100000x256_S100000x384_d1 : Shape.Concatenates [S100000x128, S100000x256] S100000x384 1
  gather_S100000x384_S100000x2_S100000x128_1_0_n_n_01_1_1128_wf : GatherDims.WF S100000x384 S100000x2 S100000x128 [1] [0] [] [0, 1] [] 1 ![1, 128]
  gather_S100000x384_S100000x2_S100000x256_1_0_n_n_01_1_1256_wf : GatherDims.WF S100000x384 S100000x2 S100000x256 [1] [0] [] [0, 1] [] 1 ![1, 256]
  gather_S100000_S50000x1_S50000_n_0_n_n_0_1_1_wf : GatherDims.WF S100000 S50000x1 S50000 [] [0] [] [0] [] 1 ![1]
  dot_S50000x1_S1x64_S50000x64_1_0_0_1_n_n_wf : DotDims.WF S50000x1 S1x64 S50000x64 [1] [0] [0] [1] [] []
  gather_S100000x384_S50000x1_S50000x384_1_0_n_n_0_1_1384_wf : GatherDims.WF S100000x384 S50000x1 S50000x384 [1] [0] [] [0] [] 1 ![1, 384]
  scatter_S100000_S100000x1_S100000_n_0_0_1_wf : ScatterDims.WF S100000 S100000x1 S100000 [] [0] [0] 1
  gather_S100000_S150000x1_S150000_n_0_n_n_0_1_1_wf : GatherDims.WF S100000 S150000x1 S150000 [] [0] [] [0] [] 1 ![1]
  scatter_S100000x1280_S150000x1_S150000x1280_1_0_0_1_wf : ScatterDims.WF S100000x1280 S150000x1 S150000x1280 [1] [0] [0] 1
  scatter_S100000_S150000x1_S150000_n_0_0_1_wf : ScatterDims.WF S100000 S150000x1 S150000 [] [0] [0] 1
  dot_S100000x1280_S1280x384_S100000x384_1_0_0_1_n_n_wf : DotDims.WF S100000x1280 S1280x384 S100000x384 [1] [0] [0] [1] [] []
  dot_S100000x128_S128x384_S100000x384_1_0_0_1_n_n_wf : DotDims.WF S100000x128 S128x384 S100000x384 [1] [0] [0] [1] [] []
  gather_S100000_S100000x1_S100000_n_0_n_n_0_1_1_wf : GatherDims.WF S100000 S100000x1 S100000 [] [0] [] [0] [] 1 ![1]

variable [Facts₀]

def gather_S100000x384_S100000x2_S100000x128_1_0_n_n_01_1_1128 : GatherDims S100000x384 S100000x2 S100000x128 where
  offsetDims := [1]
  collapsedSliceDims := [0]
  operandBatchingDims := []
  startIndicesBatchingDims := []
  startIndexMap := [0, 1]
  indexVectorDim := 1
  sliceSizes := ![1, 128]
  wf := gather_S100000x384_S100000x2_S100000x128_1_0_n_n_01_1_1128_wf
def gather_S100000x384_S100000x2_S100000x256_1_0_n_n_01_1_1256 : GatherDims S100000x384 S100000x2 S100000x256 where
  offsetDims := [1]
  collapsedSliceDims := [0]
  operandBatchingDims := []
  startIndicesBatchingDims := []
  startIndexMap := [0, 1]
  indexVectorDim := 1
  sliceSizes := ![1, 256]
  wf := gather_S100000x384_S100000x2_S100000x256_1_0_n_n_01_1_1256_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf
def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def gather_S100000x384_S50000x1_S50000x384_1_0_n_n_0_1_1384 : GatherDims S100000x384 S50000x1 S50000x384 where
  offsetDims := [1]
  collapsedSliceDims := [0]
  operandBatchingDims := []
  startIndicesBatchingDims := []
  startIndexMap := [0]
  indexVectorDim := 1
  sliceSizes := ![1, 384]
  wf := gather_S100000x384_S50000x1_S50000x384_1_0_n_n_0_1_1384_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000_S150000x1_S150000_n_0_n_n_0_1_1 : GatherDims S100000 S150000x1 S150000 where
  offsetDims := []
  collapsedSliceDims := [0]
  operandBatchingDims := []
  startIndicesBatchingDims := []
  startIndexMap := [0]
  indexVectorDim := 1
  sliceSizes := ![1]
  wf := gather_S100000_S150000x1_S150000_n_0_n_n_0_1_1_wf
def scatter_S100000x1280_S150000x1_S150000x1280_1_0_0_1 : ScatterDims S100000x1280 S150000x1 S150000x1280 where
  updateWindowDims := [1]
  insertedWindowDims := [0]
  scatterDimsToOperandDims := [0]
  indexVectorDim := 1
  wf := scatter_S100000x1280_S150000x1_S150000x1280_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def dot_S100000x1280_S1280x384_S100000x384_1_0_0_1_n_n : DotDims S100000x1280 S1280x384 S100000x384 where
  lhsContracting := [1]
  rhsContracting := [0]
  lhsNonContracting := [0]
  rhsNonContracting := [1]
  lhsBatch := []
  rhsBatch := []
  wf := dot_S100000x1280_S1280x384_S100000x384_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf

class Facts : Prop extends Facts₀ where

variable [Facts]
-- ==== Proof.EdgeProjRegionW.lean ====
import proofs.«408144_j33174327394705_3_alg».proof.Proof.Gen.Kernel.Launch
import proofs.«408144_j33174327394705_3_alg».proof.Proof.Gen.Kernel.Skeleton
import proofs.«408144_j33174327394705_3_alg».proof.Proof.Gen.Kernel.Points
import Idealize.ShloMosaic.Lib.Pipeline.FrameBody
import Idealize.ShloMosaic.Lib.Pipeline.TableIdle
import Idealize.ShloMosaic.Lib.Ring

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S1000x384 := Rect.unit (s := S1000x384) ![0, 0] S1000x384.size inb_S1000x384_S1000x384_0_0
abbrev r0_e64 : Rect S1000x64 := Rect.unit (s := S1000x64) ![0, 0] S1000x64.size inb_S1000x64_S1000x64_0_0
abbrev r0_e1 : Rect S1000x1 := Rect.unit (s := S1000x1) ![0, 0] S1000x1.size inb_S1000x1_S1000x1_0_0
abbrev r0_w384 : Rect S384x384 := Rect.unit (s := S384x384) ![0, 0] S384x384.size inb_S384x384_S384x384_0_0
abbrev r0_w64 : Rect S64x384 := Rect.unit (s := S64x384) ![0, 0] S64x384.size inb_S64x384_S64x384_0_0
abbrev r0_b64 : Rect S1x64 := Rect.unit (s := S1x64) ![0, 0] S1x64.size inb_S1x64_S1x64_0_0

-- what the body's one store writes, as a function of the twelve blocks it loads
def out0_12 (x0 x1 x2 : Vec F S1000x384 .f32) (x3 : Vec F S1000x64 .f32) (x4 : Vec F S1000x1 .f32)
    (x5 x6 x7 : Vec F S384x384 .bf16) (x8 x9 : Vec F S64x384 .bf16) (x10 x11 : Vec F S1x64 .f32) : Vec F S1000x384 .f32 :=
  View.canon [⟨r0_out, k0_pay1 (k0_pay2 (View.ld x3 r0_e64))
    (k0_pay3 (View.ld x4 r0_e1) (View.ld x10 r0_b64) (View.ld x11 r0_b64))
    (k0_pay4 (View.ld x0 r0_out) (View.ld x1 r0_out) (View.ld x2 r0_out) (View.ld x5 r0_w384) (View.ld x6 r0_w384) (View.ld x7 r0_w384))
    (View.ld x8 r0_w64) (View.ld x9 r0_w64)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

-- case by case over the twelve input windows, by the library's `Dat.before_in_eq_fetched`
theorem before0 (c : Dev nD) (w : Fin cfg0.W) (hw : w ≠ 12) (t : Fin cfg0.N) : ∀ d, (dat0 V c).before w t d = (dat0 V c).fetched w t d := by
  fin_cases w <;> first
    | exact absurd rfl hw
    | exact (dat0 V c).before_in_eq_fetched _ rfl (fun _ => rfl) (fun _ _ _ => rfl) (fun _ => rfl) t

-- the one store is of the whole block, so the block read back is its payload
set_option maxHeartbeats 1000000 in
theorem body_obligation0 (c : Dev nD) : BodyObligation (dat0 (F := F) V c) (defs₀ (F := F)) Variants.none () Set.univ := fun t => by
  rw [bigSep_W0, bigSep_W0]
  simp (disch := decide) only [before0, owns_eq_rep]
  dsimp only [dat0]
  change _ ⊢ wp _ _ _ (bodyAt0 t) _
  unfold bodyAt0
  simp only [cc0__edge_proj_kernel_eq_skeleton]; unfold cc0__edge_proj_kernel_skel
  simp only [k0_part1_eq_skeleton]; unfold k0_part1_skel
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  sl_exec
  sl_step
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply rep_of_owns
  unfold owns
  iexists _; isplitr
  swap; · iexact H12
  ipureintro
  rw [View.read_writes_eq_canon _ _ _ (View.cover_of_wholeMem _ (View.Piece.wholeMem_here (by rfl)))]
  sl_unfold_run_names
  simp only [View.readAt_rep]
  rfl

end Cert.Kernel.Frame

end
-- ==== Proof.GruRegionW.lean ====
import proofs.«408144_j33174327394705_3_alg».proof.Proof.Gen.Kernel.Launch
import proofs.«408144_j33174327394705_3_alg».proof.Proof.Gen.Kernel.Skeleton
import proofs.«408144_j33174327394705_3_alg».proof.Proof.Gen.Kernel.Points
import Idealize.ShloMosaic.Lib.Pipeline.FrameBody
import Idealize.ShloMosaic.Lib.Pipeline.TableIdle
import Idealize.ShloMosaic.Lib.Ring

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_state : Rect S2000x384 := Rect.unit (s := S2000x384) ![0, 0] S2000x128.size inb_S2000x384_S2000x128_0_0
abbrev r1_inv : Rect S2000x384 := Rect.unit (s := S2000x384) ![0, 128] S2000x256.size inb_S2000x384_S2000x256_0_128
abbrev r1_msg : Rect S2000x384 := Rect.unit (s := S2000x384) ![0, 0] S2000x384.size inb_S2000x384_S2000x384_0_0
abbrev r1_scale : Rect S2000x1 := Rect.unit (s := S2000x1) ![0, 0] S2000x1.size inb_S2000x1_S2000x1_0_0
abbrev r1_wt : Rect S128x384 := Rect.unit (s := S128x384) ![0, 0] S128x384.size inb_S128x384_S128x384_0_0
abbrev r1_bias : Rect S1x384 := Rect.unit (s := S1x384) ![0, 0] S1x384.size inb_S1x384_S1x384_0_0

-- what the body's two stores leave: columns 128 to 383 from `x2`, columns 0 to 127 computed from all six blocks
def out1_6 (x0 : Vec F S2000x384 .f32) (x1 : Vec F S2000x1 .f32) (x2 : Vec F S2000x384 .f32) (x3 : Vec F S128x384 .bf16)
    (x4 x5 : Vec F S1x384 .f32) : Vec F S2000x384 .f32 :=
  View.canon [⟨r1_inv, k1_pay1 (View.ld x2 r1_inv)⟩,
    ⟨r1_state, k1_pay2 (View.ld x0 r1_msg) (View.ld x1 r1_scale) (View.ld x4 r1_bias) (View.ld x2 r1_state) (View.ld x3 r1_wt) (View.ld x5 r1_bias)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- case by case over the six input windows, by the library's `Dat.before_in_eq_fetched`
theorem before1 (c : Dev nD) (w : Fin cfg1.W) (hw : w ≠ 6) (t : Fin cfg1.N) : ∀ d, (dat1 V c).before w t d = (dat1 V c).fetched w t d := by
  fin_cases w <;> first
    | exact absurd rfl hw
    | exact (dat1 V c).before_in_eq_fetched _ rfl (fun _ => rfl) (fun _ _ _ => rfl) (fun _ => rfl) t

-- the two stores tile the block in 2000 × 128 parts, so the block read back is their `View.canon`
set_option maxHeartbeats 1000000 in
theorem body_obligation1 (c : Dev nD) : BodyObligation (dat1 (F := F) V c) (defs₀ (F := F)) Variants.none () Set.univ := fun t => by
  rw [bigSep_W1, bigSep_W1]
  simp (disch := decide) only [before1, owns_eq_rep]
  dsimp only [dat1]
  change _ ⊢ wp _ _ _ (bodyAt1 t) _
  unfold bodyAt1
  simp only [cc1__gru_kernel_eq_skeleton]; unfold cc1__gru_kernel_skel
  iintro ⟨HΦ, Ho, ⟨%d0, H0⟩, ⟨%d1, H1⟩, ⟨%d2, H2⟩, ⟨%d3, H3⟩, ⟨%d4, H4⟩, ⟨%d5, H5⟩, ⟨%d6, H6⟩⟩
  sl_exec
  sl_step
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply rep_of_owns
  unfold owns
  iexists _; isplitr
  swap; · iexact H6
  ipureintro
  rw [View.read_writes_eq_canon _ _ _ (View.cover_of_tiledBy _ ![2000, 128] (by sl_kernel_rfl))]
  sl_unfold_run_names
  simp only [View.readAt_rep]
  rfl

end Cert.Kernel.Frame

end
-- ==== Proof.LibMain.lean ====
import Idealize.ShloMosaic.Lib.Pipeline.FrameBody
import Idealize.ShloMosaic.Lib.Pipeline.RegionsLoop
import Idealize.ShloMosaic.Lib.Pipeline.FrameSuffix
import Idealize.ShloMosaic.Lib.Tactic
noncomputable section
namespace Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} [∀ e, Nonempty (Val e)]
  {Λ₀ : SL.Sem.Labels} {P : Type} [Fintype P] [DecidableEq P]

local notation "𝕄" => MT nD τ sig Unit Val ℕ (UR sig nD τ) ℕ

-- what every segment carries beside the buffers
abbrev Rest (c : Dev nD) : sProp 𝕄 := iprop((∃ r, prngReg c r) ∗ ∃ W, owes (c : Thread nD τ) (0 : CellTallies nD τ sig Unit) W)

-- operations whose written sets are, in order, the singletons of a list of references write inside that list
theorem writes_sub_of_eq {ops : List (HloOp τ sig Val)} {W : List (Ref sig .tc)}
    (h : ops.map (·.writes) = W.map fun r => {Proc.devRef .tc r}) :
    ops.Forall fun op => op.writes ⊆ (W.map (Proc.devRef (τ := τ) .tc)).toFinset :=
  List.forall_iff_forall_mem.mpr fun op hop => by
    obtain ⟨r, hr, e⟩ := List.mem_map.mp (h ▸ List.mem_map_of_mem hop)
    rw [← e, Finset.singleton_subset_iff, List.mem_toFinset]
    exact List.mem_map_of_mem hr

-- a host stretch over the unscoped buffers, entered at contents W and left at what its operations make of them
abbrev heldHost (pcs : P → PCfg sig Λ₀ Val) (defs₀ : Defs nD τ sig Val Λ₀) (ops : List (HloOp τ sig Val))
    (hsub : ops.Forall fun op => op.bufs ⊆ StableHlo.tcRefs τ sig) (W : Dev nD → Valuation τ sig Val)
    (hfresh : ops.Forall fun op => op.fresh = ∅ := by simp only [List.Forall]; repeat' constructor) :
    HostSeg (Name := ℕ) (U := UR sig nD τ) pcs defs₀ Variants.none (fun _ => (∅ : Finset Unit)) fun _ _ => (0 : ℕ) :=
  HostSeg.ofOps _ _ _ _ _ (ucRefs τ sig) ops (fun op h => sub_ucRefs op ((List.forall_iff_forall_mem.mp hsub) op h))
    (List.forall_iff_forall_mem.mp hfresh) W Rest

variable (cfgs : P → Cfg sig Λ₀)
  (pdats : (p : P) → (c : Dev nD) → Dat τ Val Unit ℕ (UR sig nD τ) ℕ (pin (fun p => (cfgs p).toPCfg (Val := Val)) (fun p => (cfgs p).toPCfg_adm) p) c)
  (defs₀ : Defs nD τ sig Val Λ₀)

set_option backward.isDefEq.respectTransparency.types false in
-- a region over the unscoped buffers: at entry the windows' arrays leave them, at exit they come back at their exit contents
def heldRegion (p : P) (lf : LaunchFacts (nD := nD) (τ := τ) cfgs p) (Wi Wo : Dev nD → Valuation τ sig Val)
    (hb : ∀ c, BodyObligation (pdats p c) defs₀ Variants.none () Set.univ)
    (hq : ∀ c w, (pdats p c).share w = fullShare)
    (hA : ∀ c w, (pdats p c).A w = Wi c (Proc.devRef .tc (arrRef (cfgs p).spec w)))
    (hΦ : ∀ c t, (pdats p c).Φ t = ΦA (cfgs p).spec c)
    (ho : ∀ c t, (pdats p c).owed t = 0) (hrec : ∀ c, (pdats p c).recorded 0 = Set.univ)
    (hF : ∀ c w, (pdats p c).arrAt w (cfgs p).N = Wo c (Proc.devRef .tc (arrRef (cfgs p).spec w)))
    (hr : ∀ c b, (∀ w, arrRef (cfgs p).spec w ≠ b) → Wo c (Proc.devRef .tc b) = Wi c (Proc.devRef .tc b)) :
    RegionSeg (fun p => (cfgs p).toPCfg) (fun p => (cfgs p).toPCfg_adm) pdats () defs₀ Variants.none (fun _ => (∅ : Finset Unit)) (fun _ _ => (0 : ℕ)) p where
  win := lf.win.to₀
  block_pos := lf.block_pos
  stage_whole := lf.stage_whole
  K := PEmpty
  osem k := k.elim
  ho := OwnSemFacts.none _
  hbody c := (hb c).loose
  hwaits := hwaits_of_owed_zero _ _ _ _ _ _ p ho
  pre c := iprop(StableHlo.held (c : Thread nD τ) (ucRefs τ sig) (Wi c) ∗ Rest c)
  post c := iprop(StableHlo.held (c : Thread nD τ) (ucRefs τ sig) (Wo c) ∗ Rest c)
  X c := iprop(∃ r, prngReg c r)
  Y c := iprop(∃ r, prngReg c r)
  Z c := unscopedRest (cfgs p).spec c fun b => Wi c b
  hentry c := by
    rw [ownSems0_none]
    have hsplit := arrays_of_unscopedBufs (p := p) _ _ pdats lf.win lf.arr_whole c (hq c) (fun b => Wi c b) (hA c)
    rw [unscopedBufs_held] at hsplit
    iintro ⟨⟨Hbufs, Hreg, %Wd, Howes⟩, -, -⟩
    ihave Hs := hsplit $$ Hbufs
    icases Hs with ⟨Harr, Hrest⟩
    imodintro
    iframe Harr Hreg Hrest
    isplitr
    · unfold prefHeld; rw [show (Finset.univ : Finset (Fin 0)) = ∅ from rfl, BI.bigSep_empty]; iempintro
    unfold Dat.owesAt owesWithin; rw [ho]
    iexists Wd; iframe; ipureintro; exact fun x _ => Or.inl ((hrec c).symm ▸ Set.mem_univ x)
  hin c := by
    rw [hΦ]; unfold ΦA
    iintro ⟨Hscoped, -, Hreg⟩
    iframe
  hout c := by
    rw [ownSems0_none, hΦ]; unfold ΦA
    iintro ⟨Hreg, Hscoped⟩
    iframe; iempintro
  hexit c := by
    have hjoin := unscopedBufs_of_arrays (p := p) _ _ lf.win lf.arr_whole c pdats (hq c) (fun b => Wi c b) (fun b => Wo c b) ((pdats p c).arrAt · (cfgs p).N) (hF c)
      fun b hb => hr c b fun w e => hb (Finset.mem_image.mpr ⟨w, Finset.mem_univ _, e⟩)
    rw [unscopedBufs_held] at hjoin
    unfold Dat.owesAt owesWithin; rw [ho]
    iintro ⟨Harr, ⟨%Wd, -, Howes⟩, Hreg, Hrest⟩
    imodintro
    isplitl [Harr Hrest]
    · iapply hjoin; iframe
    isplitl [Hreg]; · iexact Hreg
    iexists Wd; iexact Howes

set_option backward.isDefEq.respectTransparency.types false in
-- a program that runs as segments over the unscoped buffers ends with each of them at the last boundary's contents
theorem θ_run_held (hinj : Function.Injective (cellOf (nD := nD) (τ := τ) cfgs))
    (m : (ℓ : Loc nD τ sig) → Buf Val ℓ) (ρ : Dev nD → PrngReg)
    (main : Dev nD → Prog (TpuEff nD τ sig Val (Sig Λ₀ P fun p => ((cfgs p).toPCfg (Val := Val)).Adm) .tc) PUnit)
    (segs : List (Seg (fun p => (cfgs p).toPCfg) (fun p => (cfgs p).toPCfg_adm) pdats () defs₀ Variants.none (fun _ => (∅ : Finset Unit)) fun _ _ => (0 : ℕ)))
    (hmain : ∀ c, main c = Seg.run segs) (hnd : (Seg.pipes segs).Nodup) (Wn : Dev nD → Valuation τ sig Val)
    (hch : Seg.Chains (fun c => iprop(StableHlo.held (c : Thread nD τ) (ucRefs τ sig) (fun b => m (c, b)) ∗ Rest c)) segs
      fun c => iprop((StableHlo.held (c : Thread nD τ) (ucRefs τ sig) (Wn c) ∗ ∃ r, prngReg c r) ∗ ∃ W, owes (c : Thread nD τ) (0 : CellTallies nD τ sig Unit) W)) :
    θ_run (Pipeline.defs (fun p => (cfgs p).toPCfg) defs₀) (onTc (τ := τ) main) ⟨m, fun _ => 0, ρ⟩ fun r => ∀ c : Dev nD,
      ∀ b ∈ ucRefs τ sig, r.2.mem ((c : Thread nD τ).1, b) = Wn c b :=
  θ_run_regions_kit _ _ pdats () hinj emb₁ defs₀ _ _ _ m ρ main segs
    (fun c Q => by rw [hmain c]) hnd
    (O₀ := 0) (hL := fun _ _ => rfl) (G := fun _ => iprop(emp))
    (u₀ := initOf (cells cfgs hinj) (launchToks cfgs hinj))
    (hu₀ := by
      iintro Hu; imodintro
      isplitl [Hu]
      · iapply (show (ownU (initOf (cells cfgs hinj) (launchToks cfgs hinj)) : sProp 𝕄)
            ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (hch := hch)
    (hinit := by
      refine initEach _ _ fun c => ?_
      rw [show unscopedBufs c (fun b => m ((c : Thread nD τ).loc b)) = StableHlo.held (c : Thread nD τ) (ucRefs τ sig) (fun b => m (c, b))
        from unscopedBufs_held c fun b => m (c, b)]
      iintro ⟨⟨Hbufs, -, Howes, -, Hreg, -⟩, -⟩
      imodintro
      iframe Hbufs
      isplitl [Hreg]; · iexists _; iexact Hreg
      iexists ∅; iexact Howes)
    (hfin := fun c s' => by
      iintro ⟨⟨Hbufs, -⟩, HSI⟩
      unfold StableHlo.held
      imodintro
      iapply (pointsTo_read_all (ucRefs τ sig) (fun b => ((c : Thread nD τ).1, b)) (Wn c) s')
      iframe)
    (hQ := fun s h => h)

end Idealize.ShloMosaic.Pipeline

end
-- ==== Proof.MainRunW.lean ====
import proofs.«408144_j33174327394705_3_alg».proof.Proof.EdgeProjRegionW
import proofs.«408144_j33174327394705_3_alg».proof.Proof.GruRegionW
import proofs.«408144_j33174327394705_3_alg».proof.Proof.LibMain
noncomputable section
namespace Cert.Kernel.Frame
open Cert.Kernel Cert.Kernel.Gen
open Idealize.ShloMosaic Idealize.ShloMosaic.TcCoe Idealize.ShloMosaic.Tactic
open Idealize.SL Idealize.SL.BI Idealize.SL.BI.Laws Idealize.SL.Sem
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
-- a region's exit contents: each window's array at its last contents, every other buffer as at entry
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev written0 : List (Ref sig .tc) :=
  [
    main_c, main_v0, main_v1, main_c_0, main_v2, main_v3, main_v4, main_v5, main_v6, main_c_1,
    main_v7, main_v8, main_c_2, main_v9, main_v10, main_v11, main_v12, main_v13, main_c_3, main_v14,
    main_v15, main_c_4, main_v16, main_v17, main_v18, main_v19, main_v20, main_c_5, main_v21, main_v22,
    main_c_6, main_v23, main_v24, main_v25, main_v26, main_v27, main_v28, main_v29, main_v30, main_v31,
    main_v32, main_v33, main_v34, main_v35, main_v36, main_v37, main_v38, main_v39, main_v40, main_v41,
    main_v42 ]
abbrev written1 : List (Ref sig .tc) :=
  [
    main_c_7, main_v44, main_v45, main_c_8, main_v46, main_v47, main_c_9, main_v48, main_v49, main_v50,
    main_v51, main_v52, main_v53, main_c_10, main_v54, main_v55, main_c_11, main_v56, main_v57, main_v58,
    main_v59, main_v60, main_v61, main_cst, main_v62, main_c_12, main_v63, main_v64, main_c_13, main_v65,
    main_v66, main_v67, main_v68, main_v69, main_cst_14, main_v70, main_cst_15, main_v71, main_c_16, main_v72,
    main_v73, main_c_17, main_v74, main_v75, main_v76, main_v77, main_v78, main_cst_18, main_v79, main_v80,
    main_cst_19, main_v81, main_v82, main_v83, main_v84, main_c_20, main_v85, main_c_21, main_v86, main_v87,
    main_c_22, main_v88, main_v89, main_v90, main_v91, main_v92, main_c_23, main_v93, main_v94, main_c_24,
    main_v95, main_v96, main_v97, main_v98, main_v99, main_c_25, main_v100, main_v101, main_c_26, main_v102,
    main_v103, main_v104, main_v105, main_v106, main_v107, main_v108, main_v109, main_v110, main_v111 ]

theorem W1_keeps (c : Dev nD) (r : Ref sig .tc) (h : r ∉ written0) :
    W1 m ρ c (Proc.devRef .tc r) = W0 m ρ c (Proc.devRef .tc r) :=
  StableHlo.after_of_writes_sub (W := written0) hostOps0 _ (Pipeline.writes_sub_of_eq rfl) h
theorem W3_keeps (c : Dev nD) (r : Ref sig .tc) (h : r ∉ written1) :
    W3 m ρ c (Proc.devRef .tc r) = W2 m ρ c (Proc.devRef .tc r) :=
  StableHlo.after_of_writes_sub (W := written1) hostOps1 _ (Pipeline.writes_sub_of_eq rfl) h

-- an input window's array is at exit what it was at entry
theorem W2_keeps (c : Dev nD) (r : Ref sig .tc) (h : ∀ w, Pipeline.arrRef spec0 w = r → (cfg0.win w).isOut = false) :
    W2 m ρ c (Proc.devRef .tc r) = W1 m ρ c (Proc.devRef .tc r) := by
  by_cases e : ∃ w, Pipeline.arrRef spec0 w = r
  · obtain ⟨w, rfl⟩ := e
    exact (W2_arr m ρ c w).trans (((dat0 (V1 m ρ) c).arrAt_in w (h w rfl) _).trans (A_eq0 (V1 m ρ) c w))
  · exact W2_of_ne m ρ c r fun w hw => e ⟨w, hw⟩

-- whether no stretch writes r, no window of region 1 holds it, and region 0 holds it at most as an input
def kept (r : Ref sig .tc) : Bool :=
  decide (r ∉ written0 ∧ r ∉ written1 ∧ (∀ w, Pipeline.arrRef spec1 w ≠ r) ∧ ∀ w, Pipeline.arrRef spec0 w = r → (cfg0.win w).isOut = false)
-- such a reference ends as launched
theorem W4_keeps (c : Dev nD) (r : Ref sig .tc) (h : kept r = true) : W4 m ρ c (Proc.devRef .tc r) = m ((c : Thread nD τ).loc r) :=
  have h := of_decide_eq_true h
  (W4_of_ne m ρ c r h.2.2.1).trans <| (W3_keeps m ρ c r h.2.1).trans <| (W2_keeps m ρ c r h.2.2.2).trans (W1_keeps m ρ c r h.1)

theorem W4_main_v111 (c : Dev nD) : W4 m ρ c (Proc.devRef .tc main_v111) = (dat1 (V3 m ρ) c).arrAt 6 cfg1.N :=
  W4_arr m ρ c 6
theorem W4_main_v99 (c : Dev nD) : W4 m ρ c (Proc.devRef .tc main_v99) = W3 m ρ c (Proc.devRef .tc main_v99) :=
  W4_of_ne m ρ c main_v99 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ Variants.none (fun _ => ∅) fun _ _ => 0) :=
  [ .host (Pipeline.heldHost _ _ hostOps0 hostOps0_sub (W0 m ρ)),
    .region (Pipeline.heldRegion cfgs (pdats m ρ) defs₀ 0 launch0 (W1 m ρ) (W2 m ρ) (body_obligation0 (V1 m ρ)) (fun c => (pdats m ρ 0 c).share_full fun _ => rfl) (fun _ _ => rfl)
      (fun _ _ => rfl) (fun _ _ => rfl) (fun _ => rfl) (fun c w => (W2_arr m ρ c w).symm) (W2_of_ne m ρ)),
    .host (Pipeline.heldHost _ _ hostOps1 hostOps1_sub (W2 m ρ)),
    .region (Pipeline.heldRegion cfgs (pdats m ρ) defs₀ 1 launch1 (W3 m ρ) (W4 m ρ) (body_obligation1 (V3 m ρ)) (fun c => (pdats m ρ 1 c).share_full fun _ => rfl) (fun _ _ => rfl)
      (fun _ _ => rfl) (fun _ _ => rfl) (fun _ => rfl) (fun c w => (W4_arr m ρ c w).symm) (W4_of_ne m ρ)) ]

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_held cfgs (pdats m ρ) defs₀ cellOf_inj m ρ main (segs m ρ) (fun c => (main_chain c).trans (by chain_rfl))
    (by simp only [segs, Pipeline.Seg.pipes_host, Pipeline.Seg.pipes_region, Pipeline.Seg.pipes_nil]; decide) (W4 m ρ)
    ⟨fun _ => .rfl, fun _ => .rfl, fun _ => .rfl, fun _ => .rfl, fun _ => sep_assoc.2⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    repeat' apply And.intro
    all_goals exact (h c _ (mem_uc _ (by decide))).trans (W4_keeps m ρ c _ (by decide))) (run_main m ρ)

end Cert.Kernel.Frame

end
-- ==== Proof.EdgeProjRegion.lean ====
import proofs.«408144_j33174327394705_3_alg».proof.Proof.Gen.KernelIdeal.Launch
import proofs.«408144_j33174327394705_3_alg».proof.Proof.Gen.KernelIdeal.Skeleton
import proofs.«408144_j33174327394705_3_alg».proof.Proof.Gen.KernelIdeal.Points
import Idealize.ShloMosaic.Lib.Pipeline.FrameBody
import Idealize.ShloMosaic.Lib.Pipeline.TableIdle
import Idealize.ShloMosaic.Lib.Ring

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S1000x384 := Rect.unit (s := S1000x384) ![0, 0] S1000x384.size inb_S1000x384_S1000x384_0_0
abbrev r0_e64 : Rect S1000x64 := Rect.unit (s := S1000x64) ![0, 0] S1000x64.size inb_S1000x64_S1000x64_0_0
abbrev r0_e1 : Rect S1000x1 := Rect.unit (s := S1000x1) ![0, 0] S1000x1.size inb_S1000x1_S1000x1_0_0
abbrev r0_w384 : Rect S384x384 := Rect.unit (s := S384x384) ![0, 0] S384x384.size inb_S384x384_S384x384_0_0
abbrev r0_w64 : Rect S64x384 := Rect.unit (s := S64x384) ![0, 0] S64x384.size inb_S64x384_S64x384_0_0
abbrev r0_b64 : Rect S1x64 := Rect.unit (s := S1x64) ![0, 0] S1x64.size inb_S1x64_S1x64_0_0

-- what the body's one store writes, as a function of the twelve blocks it loads
def out0_12 (x0 x1 x2 : Vec F S1000x384 .f32) (x3 : Vec F S1000x64 .f32) (x4 : Vec F S1000x1 .f32)
    (x5 x6 x7 : Vec F S384x384 .bf16) (x8 x9 : Vec F S64x384 .bf16) (x10 x11 : Vec F S1x64 .f32) : Vec F S1000x384 .f32 :=
  View.canon [⟨r0_out, k0_pay1 (k0_pay2 (View.ld x3 r0_e64))
    (k0_pay3 (View.ld x4 r0_e1) (View.ld x10 r0_b64) (View.ld x11 r0_b64))
    (k0_pay4 (View.ld x0 r0_out) (View.ld x1 r0_out) (View.ld x2 r0_out) (View.ld x5 r0_w384) (View.ld x6 r0_w384) (View.ld x7 r0_w384))
    (View.ld x8 r0_w64) (View.ld x9 r0_w64)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

-- case by case over the twelve input windows, by the library's `Dat.before_in_eq_fetched`
theorem before0 (c : Dev nD) (w : Fin cfg0.W) (hw : w ≠ 12) (t : Fin cfg0.N) : ∀ d, (dat0 V c).before w t d = (dat0 V c).fetched w t d := by
  fin_cases w <;> first
    | exact absurd rfl hw
    | exact (dat0 V c).before_in_eq_fetched _ rfl (fun _ => rfl) (fun _ _ _ => rfl) (fun _ => rfl) t

-- the one store is of the whole block, so the block read back is its payload
set_option maxHeartbeats 1000000 in
theorem body_obligation0 (c : Dev nD) : BodyObligation (dat0 (F := F) V c) (defs₀ (F := F)) Variants.none () Set.univ := fun t => by
  rw [bigSep_W0, bigSep_W0]
  simp (disch := decide) only [before0, owns_eq_rep]
  dsimp only [dat0]
  change _ ⊢ wp _ _ _ (bodyAt0 t) _
  unfold bodyAt0
  simp only [cc0__edge_proj_kernel_eq_skeleton]; unfold cc0__edge_proj_kernel_skel
  simp only [k0_part1_eq_skeleton]; unfold k0_part1_skel
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  sl_exec
  sl_step
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply rep_of_owns
  unfold owns
  iexists _; isplitr
  swap; · iexact H12
  ipureintro
  rw [View.read_writes_eq_canon _ _ _ (View.cover_of_wholeMem _ (View.Piece.wholeMem_here (by rfl)))]
  sl_unfold_run_names
  simp only [View.readAt_rep]
  rfl

end Cert.KernelIdeal.Frame

end
-- ==== Proof.GruRegion.lean ====
import proofs.«408144_j33174327394705_3_alg».proof.Proof.Gen.KernelIdeal.Launch
import proofs.«408144_j33174327394705_3_alg».proof.Proof.Gen.KernelIdeal.Skeleton
import proofs.«408144_j33174327394705_3_alg».proof.Proof.Gen.KernelIdeal.Points
import Idealize.ShloMosaic.Lib.Pipeline.FrameBody
import Idealize.ShloMosaic.Lib.Pipeline.TableIdle
import Idealize.ShloMosaic.Lib.Ring

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_state : Rect S2000x384 := Rect.unit (s := S2000x384) ![0, 0] S2000x128.size inb_S2000x384_S2000x128_0_0
abbrev r1_inv : Rect S2000x384 := Rect.unit (s := S2000x384) ![0, 128] S2000x256.size inb_S2000x384_S2000x256_0_128
abbrev r1_msg : Rect S2000x384 := Rect.unit (s := S2000x384) ![0, 0] S2000x384.size inb_S2000x384_S2000x384_0_0
abbrev r1_scale : Rect S2000x1 := Rect.unit (s := S2000x1) ![0, 0] S2000x1.size inb_S2000x1_S2000x1_0_0
abbrev r1_wt : Rect S128x384 := Rect.unit (s := S128x384) ![0, 0] S128x384.size inb_S128x384_S128x384_0_0
abbrev r1_bias : Rect S1x384 := Rect.unit (s := S1x384) ![0, 0] S1x384.size inb_S1x384_S1x384_0_0

-- what the body's two stores leave: columns 128 to 383 from `x2`, columns 0 to 127 computed from all six blocks
def out1_6 (x0 : Vec F S2000x384 .f32) (x1 : Vec F S2000x1 .f32) (x2 : Vec F S2000x384 .f32) (x3 : Vec F S128x384 .bf16)
    (x4 x5 : Vec F S1x384 .f32) : Vec F S2000x384 .f32 :=
  View.canon [⟨r1_inv, k1_pay1 (View.ld x2 r1_inv)⟩,
    ⟨r1_state, k1_pay2 (View.ld x0 r1_msg) (View.ld x1 r1_scale) (View.ld x4 r1_bias) (View.ld x2 r1_state) (View.ld x3 r1_wt) (View.ld x5 r1_bias)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- case by case over the six input windows, by the library's `Dat.before_in_eq_fetched`
theorem before1 (c : Dev nD) (w : Fin cfg1.W) (hw : w ≠ 6) (t : Fin cfg1.N) : ∀ d, (dat1 V c).before w t d = (dat1 V c).fetched w t d := by
  fin_cases w <;> first
    | exact absurd rfl hw
    | exact (dat1 V c).before_in_eq_fetched _ rfl (fun _ => rfl) (fun _ _ _ => rfl) (fun _ => rfl) t

-- the two stores tile the block in 2000 × 128 parts, so the block read back is their `View.canon`
set_option maxHeartbeats 1000000 in
theorem body_obligation1 (c : Dev nD) : BodyObligation (dat1 (F := F) V c) (defs₀ (F := F)) Variants.none () Set.univ := fun t => by
  rw [bigSep_W1, bigSep_W1]
  simp (disch := decide) only [before1, owns_eq_rep]
  dsimp only [dat1]
  change _ ⊢ wp _ _ _ (bodyAt1 t) _
  unfold bodyAt1
  simp only [cc1__gru_kernel_eq_skeleton]; unfold cc1__gru_kernel_skel
  iintro ⟨HΦ, Ho, ⟨%d0, H0⟩, ⟨%d1, H1⟩, ⟨%d2, H2⟩, ⟨%d3, H3⟩, ⟨%d4, H4⟩, ⟨%d5, H5⟩, ⟨%d6, H6⟩⟩
  sl_exec
  sl_step
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply rep_of_owns
  unfold owns
  iexists _; isplitr
  swap; · iexact H6
  ipureintro
  rw [View.read_writes_eq_canon _ _ _ (View.cover_of_tiledBy _ ![2000, 128] (by sl_kernel_rfl))]
  sl_unfold_run_names
  simp only [View.readAt_rep]
  rfl

end Cert.KernelIdeal.Frame

end
-- ==== Proof.MainRun.lean ====
import proofs.«408144_j33174327394705_3_alg».proof.Proof.EdgeProjRegion
import proofs.«408144_j33174327394705_3_alg».proof.Proof.GruRegion
import proofs.«408144_j33174327394705_3_alg».proof.Proof.LibMain
noncomputable section
namespace Cert.KernelIdeal.Frame
open Cert.KernelIdeal Cert.KernelIdeal.Gen
open Idealize.ShloMosaic Idealize.ShloMosaic.TcCoe Idealize.ShloMosaic.Tactic
open Idealize.SL Idealize.SL.BI Idealize.SL.BI.Laws Idealize.SL.Sem
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
-- a region's exit contents: each window's array at its last contents, every other buffer as at entry
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev written0 : List (Ref sig .tc) :=
  [
    main_c, main_v0, main_v1, main_c_0, main_v2, main_v3, main_v4, main_v5, main_v6, main_c_1,
    main_v7, main_v8, main_c_2, main_v9, main_v10, main_v11, main_v12, main_v13, main_c_3, main_v14,
    main_v15, main_c_4, main_v16, main_v17, main_v18, main_v19, main_v20, main_c_5, main_v21, main_v22,
    main_c_6, main_v23, main_v24, main_v25, main_v26, main_v27, main_v28, main_v29, main_v30, main_v31,
    main_v32, main_v33, main_v34, main_v35, main_v36, main_v37, main_v38, main_v39, main_v40, main_v41,
    main_v42 ]
abbrev written1 : List (Ref sig .tc) :=
  [
    main_c_7, main_v44, main_v45, main_c_8, main_v46, main_v47, main_c_9, main_v48, main_v49, main_v50,
    main_v51, main_v52, main_v53, main_c_10, main_v54, main_v55, main_c_11, main_v56, main_v57, main_v58,
    main_v59, main_v60, main_v61, main_cst, main_v62, main_c_12, main_v63, main_v64, main_c_13, main_v65,
    main_v66, main_v67, main_v68, main_v69, main_cst_14, main_v70, main_cst_15, main_v71, main_c_16, main_v72,
    main_v73, main_c_17, main_v74, main_v75, main_v76, main_v77, main_v78, main_cst_18, main_v79, main_v80,
    main_cst_19, main_v81, main_v82, main_v83, main_v84, main_c_20, main_v85, main_c_21, main_v86, main_v87,
    main_c_22, main_v88, main_v89, main_v90, main_v91, main_v92, main_c_23, main_v93, main_v94, main_c_24,
    main_v95, main_v96, main_v97, main_v98, main_v99, main_c_25, main_v100, main_v101, main_c_26, main_v102,
    main_v103, main_v104, main_v105, main_v106, main_v107, main_v108, main_v109, main_v110, main_v111 ]

theorem W1_keeps (c : Dev nD) (r : Ref sig .tc) (h : r ∉ written0) :
    W1 m ρ c (Proc.devRef .tc r) = W0 m ρ c (Proc.devRef .tc r) :=
  StableHlo.after_of_writes_sub (W := written0) hostOps0 _ (Pipeline.writes_sub_of_eq rfl) h
theorem W3_keeps (c : Dev nD) (r : Ref sig .tc) (h : r ∉ written1) :
    W3 m ρ c (Proc.devRef .tc r) = W2 m ρ c (Proc.devRef .tc r) :=
  StableHlo.after_of_writes_sub (W := written1) hostOps1 _ (Pipeline.writes_sub_of_eq rfl) h

-- an input window's array is at exit what it was at entry
theorem W2_keeps (c : Dev nD) (r : Ref sig .tc) (h : ∀ w, Pipeline.arrRef spec0 w = r → (cfg0.win w).isOut = false) :
    W2 m ρ c (Proc.devRef .tc r) = W1 m ρ c (Proc.devRef .tc r) := by
  by_cases e : ∃ w, Pipeline.arrRef spec0 w = r
  · obtain ⟨w, rfl⟩ := e
    exact (W2_arr m ρ c w).trans (((dat0 (V1 m ρ) c).arrAt_in w (h w rfl) _).trans (A_eq0 (V1 m ρ) c w))
  · exact W2_of_ne m ρ c r fun w hw => e ⟨w, hw⟩

-- whether no stretch writes r, no window of region 1 holds it, and region 0 holds it at most as an input
def kept (r : Ref sig .tc) : Bool :=
  decide (r ∉ written0 ∧ r ∉ written1 ∧ (∀ w, Pipeline.arrRef spec1 w ≠ r) ∧ ∀ w, Pipeline.arrRef spec0 w = r → (cfg0.win w).isOut = false)
-- such a reference ends as launched
theorem W4_keeps (c : Dev nD) (r : Ref sig .tc) (h : kept r = true) : W4 m ρ c (Proc.devRef .tc r) = m ((c : Thread nD τ).loc r) :=
  have h := of_decide_eq_true h
  (W4_of_ne m ρ c r h.2.2.1).trans <| (W3_keeps m ρ c r h.2.1).trans <| (W2_keeps m ρ c r h.2.2.2).trans (W1_keeps m ρ c r h.1)

theorem W4_main_v111 (c : Dev nD) : W4 m ρ c (Proc.devRef .tc main_v111) = (dat1 (V3 m ρ) c).arrAt 6 cfg1.N :=
  W4_arr m ρ c 6
theorem W4_main_v99 (c : Dev nD) : W4 m ρ c (Proc.devRef .tc main_v99) = W3 m ρ c (Proc.devRef .tc main_v99) :=
  W4_of_ne m ρ c main_v99 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ Variants.none (fun _ => ∅) fun _ _ => 0) :=
  [ .host (Pipeline.heldHost _ _ hostOps0 hostOps0_sub (W0 m ρ)),
    .region (Pipeline.heldRegion cfgs (pdats m ρ) defs₀ 0 launch0 (W1 m ρ) (W2 m ρ) (body_obligation0 (V1 m ρ)) (fun c => (pdats m ρ 0 c).share_full fun _ => rfl) (fun _ _ => rfl)
      (fun _ _ => rfl) (fun _ _ => rfl) (fun _ => rfl) (fun c w => (W2_arr m ρ c w).symm) (W2_of_ne m ρ)),
    .host (Pipeline.heldHost _ _ hostOps1 hostOps1_sub (W2 m ρ)),
    .region (Pipeline.heldRegion cfgs (pdats m ρ) defs₀ 1 launch1 (W3 m ρ) (W4 m ρ) (body_obligation1 (V3 m ρ)) (fun c => (pdats m ρ 1 c).share_full fun _ => rfl) (fun _ _ => rfl)
      (fun _ _ => rfl) (fun _ _ => rfl) (fun _ => rfl) (fun c w => (W4_arr m ρ c w).symm) (W4_of_ne m ρ)) ]

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_held cfgs (pdats m ρ) defs₀ cellOf_inj m ρ main (segs m ρ) (fun c => (main_chain c).trans (by chain_rfl))
    (by simp only [segs, Pipeline.Seg.pipes_host, Pipeline.Seg.pipes_region, Pipeline.Seg.pipes_nil]; decide) (W4 m ρ)
    ⟨fun _ => .rfl, fun _ => .rfl, fun _ => .rfl, fun _ => .rfl, fun _ => sep_assoc.2⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    repeat' apply And.intro
    all_goals exact (h c _ (mem_uc _ (by decide))).trans (W4_keeps m ρ c _ (by decide))) (run_main m ρ)

end Cert.KernelIdeal.Frame

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr2 (n0 n1 : Nat) : Type := (⟨2, ![n0, n1]⟩ : Shape).Idx → EReal

abbrev one32 : EReal := Ideal.ofBits .f32 0x3F800000#32

-- An interaction's message through the input weights: one partial product per band of the message.
def edgeProjAt (a1 a2 a3 : Arr2 50000 384) (raw : Arr2 50000 64) (trel : Arr2 50000 1)
    (w1 w2 w3 : Arr2 384 384) (w4 w5 : Arr2 64 384) (wt bt : Arr2 1 64) (e : Fin 50000) (g : Fin 384) : EReal :=
  ((((∑ k : Fin 384, a1 (ix2 e k) * w1 (ix2 k g))
      + ∑ k : Fin 384, a2 (ix2 e k) * w2 (ix2 k g))
      + ∑ k : Fin 384, a3 (ix2 e k) * w3 (ix2 k g))
      + ∑ k : Fin 64, raw (ix2 e k) * w4 (ix2 k g))
      + ∑ k : Fin 64, Ideal.cos (trel (ix2 e (0 : Fin 1)) * wt (ix2 (0 : Fin 1) k) + bt (ix2 (0 : Fin 1) k)) * w5 (ix2 k g)

def gateIn (tot : Arr2 100000 384) (inv : Arr2 100000 1) (bih : Arr2 1 384) (n : Fin 100000) (q : Fin 384) : EReal :=
  tot (ix2 n q) * inv (ix2 n (0 : Fin 1)) + bih (ix2 (0 : Fin 1) q)

def gateHid (sel : Arr2 100000 384) (whh : Arr2 128 384) (bhh : Arr2 1 384) (n : Fin 100000) (q : Fin 384) : EReal :=
  (∑ k : Fin 128, sel (ix2 n (Fin.castLE (by decide) k)) * whh (ix2 k q)) + bhh (ix2 (0 : Fin 1) q)

-- The gated recurrent cell: reset `r`, update `z`, candidate `tanh (x + r · h)`, new state `(1 - z) · candidate + z · old`.
def newStateAt (tot : Arr2 100000 384) (inv : Arr2 100000 1) (sel : Arr2 100000 384) (whh : Arr2 128 384)
    (bih bhh : Arr2 1 384) (n : Fin 100000) (j : Fin 128) : EReal :=
  let q0 : Fin 384 := ⟨j.val, by omega⟩
  let q1 : Fin 384 := ⟨128 + j.val, by omega⟩
  let q2 : Fin 384 := ⟨256 + j.val, by omega⟩
  let r := Ideal.logistic (gateIn tot inv bih n q0 + gateHid sel whh bhh n q0)
  let z := Ideal.logistic (gateIn tot inv bih n q1 + gateHid sel whh bhh n q1)
  let cand := Ideal.tanh (gateIn tot inv bih n q2 + r * gateHid sel whh bhh n q2)
  (one32 - z) * cand + z * sel (ix2 n q0)

-- The first 128 columns of a memory row are the state, updated; the rest are kept.
def memRowAt (tot : Arr2 100000 384) (inv : Arr2 100000 1) (sel : Arr2 100000 384) (whh : Arr2 128 384)
    (bih bhh : Arr2 1 384) (n : Fin 100000) (col : Fin 384) : EReal :=
  if h : col.val < 128 then newStateAt tot inv sel whh bih bhh n ⟨col.val, h⟩ else sel (ix2 n col)

end Cert.Spec

end
-- ==== Proof.EdgeProjValue.lean ====
import proofs.«408144_j33174327394705_3_alg».proof.Proof.EdgeProjRegion
import proofs.«408144_j33174327394705_3_alg».proof.Proof.Spec
import Idealize.ShloMosaic.Lib.KernelVsHost
import Idealize.ShloMosaic.Lib.StackMember
import Idealize.ShloMosaic.Lib.ValueLayout

noncomputable section

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat)

-- A matrix product into a zero accumulator is, at (p, q), the sum over k of L (p, k) · R (k, q).
theorem mm_plain {m k n : ℕ} {φ₁ φ₂ : FTy} (L : FVec Ideal ⟨2, ![m, k]⟩ φ₁) (R : FVec Ideal ⟨2, ![k, n]⟩ φ₂) (p : Fin m) (q : Fin n) :
    matmul (DotDims.plain m k n) none L R (constant (F := Ideal) ⟨2, ![m, n]⟩ .f32 0x00000000#32) (ix2 p q) = ∑ c : Fin k, L (ix2 p c) * R (ix2 c q) :=
  (congrFun (matmul_zero_eq_dotGeneral _ _ L R) _).trans (StackMember.dotGeneral_plain_apply none L R p q)

-- A column spread over the columns reads, at (p, q), the column's row p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem cosV_apply {s : Shape} {φ : FTy} (a : FVec Ideal s φ) (i : s.Idx) : cos a i = Ideal.cos (a i) := rfl

-- The stored payload at (p, q): the five partial products of the projection formula, over the blocks.
theorem blockPay_apply (x0 x1 x2 : Vec Ideal S1000x384 .f32) (x3 : Vec Ideal S1000x64 .f32) (x4 : Vec Ideal S1000x1 .f32)
    (x5 x6 x7 : Vec Ideal S384x384 .bf16) (x8 x9 : Vec Ideal S64x384 .bf16) (x10 x11 : Vec Ideal S1x64 .f32) (p : Fin 1000) (q : Fin 384) :
    k0_pay1 (F := Ideal) (k0_pay2 x3) (k0_pay3 x4 x10 x11) (k0_pay4 x0 x1 x2 x5 x6 x7) x8 x9 (ix2 p q)
      = ((((∑ k : Fin 384, x0 (ix2 p k) * x5 (ix2 k q)) + ∑ k : Fin 384, x1 (ix2 p k) * x6 (ix2 k q)) + ∑ k : Fin 384, x2 (ix2 p k) * x7 (ix2 k q))
          + ∑ k : Fin 64, x3 (ix2 p k) * x8 (ix2 k q))
          + ∑ k : Fin 64, Ideal.cos (x4 (ix2 p (0 : Fin 1)) * x10 (ix2 (0 : Fin 1) k) + x11 (ix2 (0 : Fin 1) k)) * x9 (ix2 k q) := by
  unfold k0_pay1 k0_pay2 k0_pay3 k0_pay4
  simp only [shapeCast_self, addf_apply, show dot_S1000x384_S384x384_S1000x384_1_0_0_1_n_n = DotDims.plain 1000 384 384 from rfl,
    show dot_S1000x64_S64x384_S1000x384_1_0_0_1_n_n = DotDims.plain 1000 64 384 from rfl, mm_plain, truncf_apply, cosV_apply,
    mulf_apply, broadcastTo_a1_ab_apply, broadcastTo_1b_ab_apply]

variable (V : (c : Dev nD) → (b : Ref sig .tc) → Buf (Elt Ideal) ((c : Thread nD τ).loc b))

theorem zeroOffsets : (![0, 0] : Fin 2 → Nat) = fun _ => 0 := funext fun a => by fin_cases a <;> rfl

theorem ld00 {a b : ℕ} {e : EltTy} (inb) (X : (⟨2, ![a, b]⟩ : Shape).Idx → Elt Ideal e) :
    View.ld X (Rect.unit ![0, 0] (Shape.size ⟨2, ![a, b]⟩) inb) = X := View.ld_unit_zero zeroOffsets inb X

abbrev projArr (A0 A1 A2 : Cert.Spec.Arr2 50000 384) (A3 : Cert.Spec.Arr2 50000 64) (A4 : Cert.Spec.Arr2 50000 1)
    (A5 A6 A7 : Cert.Spec.Arr2 384 384) (A8 A9 : Cert.Spec.Arr2 64 384) (A10 A11 : Cert.Spec.Arr2 1 64) : S50000x384.Idx → EReal :=
  fun i => Cert.Spec.edgeProjAt A0 A1 A2 A3 A4 A5 A6 A7 A8 A9 A10 A11 ⟨(i 0).val, idx2_lt0 i⟩ ⟨(i 1).val, idx2_lt1 i⟩

theorem idx0 : ∀ (t : Fin cfg0.N) (w : Fin cfg0.W) (a : Fin (cfg0.win w).shape.rank),
    (cfg0.win w).index t a * (cfg0.win w).size a = if (w.val < 5 ∨ w.val = 12) ∧ a.val = 0 then t.val * 1000 else 0 :=
  (by decide +kernel : ∀ t : Fin grid0.N, _)

def rowOf (t : Fin cfg0.N) (p : Fin 1000) : Fin 50000 :=
  ⟨t.val * 1000 + p.val, by have ht : t.val < 50 := lt_of_lt_of_eq t.isLt N_0; have := p.isLt; omega⟩

-- An entry of a block sits in the array at the block's start plus its own coordinate.
theorem blk0 (w : Fin cfg0.W) (t : Fin cfg0.N) (y : ((cfg0.win w).xblock (grid0.coords t)).Idx) (z : (cfg0.win w).shape.Idx)
    (h : ∀ a, (z a).val = (if (w.val < 5 ∨ w.val = 12) ∧ a.val = 0 then t.val * 1000 else 0) + (y a).val) :
    ((cfg0.win w).rect t).emb y = z :=
  funext fun a => Fin.ext (((cfg0.win w).rect_emb_val t y a).trans (by rw [idx0 t w a, h a]))

theorem rows0_apply (c : Dev nD) (t : Fin cfg0.N) (p : Fin 1000) (k : Fin 384) :
    iblk0 V c 0 t (ix2 p k) = V c (Pipeline.arrRef spec0 0) (ix2 (rowOf t p) k) :=
  congrArg (V c (Pipeline.arrRef spec0 0)) (blk0 0 t _ _ fun a => match a with | ⟨0, _⟩ => rfl | ⟨1, _⟩ => (Nat.zero_add _).symm)
theorem rows1_apply (c : Dev nD) (t : Fin cfg0.N) (p : Fin 1000) (k : Fin 384) :
    iblk0 V c 1 t (ix2 p k) = V c (Pipeline.arrRef spec0 1) (ix2 (rowOf t p) k) :=
  congrArg (V c (Pipeline.arrRef spec0 1)) (blk0 1 t _ _ fun a => match a with | ⟨0, _⟩ => rfl | ⟨1, _⟩ => (Nat.zero_add _).symm)
theorem rows2_apply (c : Dev nD) (t : Fin cfg0.N) (p : Fin 1000) (k : Fin 384) :
    iblk0 V c 2 t (ix2 p k) = V c (Pipeline.arrRef spec0 2) (ix2 (rowOf t p) k) :=
  congrArg (V c (Pipeline.arrRef spec0 2)) (blk0 2 t _ _ fun a => match a with | ⟨0, _⟩ => rfl | ⟨1, _⟩ => (Nat.zero_add _).symm)
theorem rows3_apply (c : Dev nD) (t : Fin cfg0.N) (p : Fin 1000) (k : Fin 64) :
    iblk0 V c 3 t (ix2 p k) = V c (Pipeline.arrRef spec0 3) (ix2 (rowOf t p) k) :=
  congrArg (V c (Pipeline.arrRef spec0 3)) (blk0 3 t _ _ fun a => match a with | ⟨0, _⟩ => rfl | ⟨1, _⟩ => (Nat.zero_add _).symm)
theorem rows4_apply (c : Dev nD) (t : Fin cfg0.N) (p : Fin 1000) :
    iblk0 V c 4 t (ix2 p (0 : Fin 1)) = V c (Pipeline.arrRef spec0 4) (ix2 (rowOf t p) (0 : Fin 1)) :=
  congrArg (V c (Pipeline.arrRef spec0 4)) (blk0 4 t _ _ fun a => match a with | ⟨0, _⟩ => rfl | ⟨1, _⟩ => (Nat.zero_add _).symm)
theorem whole5 (c : Dev nD) (t : Fin cfg0.N) : iblk0 V c 5 t = V c (Pipeline.arrRef spec0 5) :=
  funext fun y => congrArg (V c (Pipeline.arrRef spec0 5)) (blk0 5 t y y fun a => (Nat.zero_add _).symm)
theorem whole6 (c : Dev nD) (t : Fin cfg0.N) : iblk0 V c 6 t = V c (Pipeline.arrRef spec0 6) :=
  funext fun y => congrArg (V c (Pipeline.arrRef spec0 6)) (blk0 6 t y y fun a => (Nat.zero_add _).symm)
theorem whole7 (c : Dev nD) (t : Fin cfg0.N) : iblk0 V c 7 t = V c (Pipeline.arrRef spec0 7) :=
  funext fun y => congrArg (V c (Pipeline.arrRef spec0 7)) (blk0 7 t y y fun a => (Nat.zero_add _).symm)
theorem whole8 (c : Dev nD) (t : Fin cfg0.N) : iblk0 V c 8 t = V c (Pipeline.arrRef spec0 8) :=
  funext fun y => congrArg (V c (Pipeline.arrRef spec0 8)) (blk0 8 t y y fun a => (Nat.zero_add _).symm)
theorem whole9 (c : Dev nD) (t : Fin cfg0.N) : iblk0 V c 9 t = V c (Pipeline.arrRef spec0 9) :=
  funext fun y => congrArg (V c (Pipeline.arrRef spec0 9)) (blk0 9 t y y fun a => (Nat.zero_add _).symm)
theorem whole10 (c : Dev nD) (t : Fin cfg0.N) : iblk0 V c 10 t = V c (Pipeline.arrRef spec0 10) :=
  funext fun y => congrArg (V c (Pipeline.arrRef spec0 10)) (blk0 10 t y y fun a => (Nat.zero_add _).symm)
theorem whole11 (c : Dev nD) (t : Fin cfg0.N) : iblk0 V c 11 t = V c (Pipeline.arrRef spec0 11) :=
  funext fun y => congrArg (V c (Pipeline.arrRef spec0 11)) (blk0 11 t y y fun a => (Nat.zero_add _).symm)
theorem outCut_apply {α : Type} (t : Fin cfg0.N) (X : S1000x384.Idx → α) (p : Fin 1000) (q : Fin 384) :
    (cfg0.win 12).cut (grid0.coords t) X (ix2 p q) = X (ix2 p q) :=
  congrArg X (funext fun a => match a with | ⟨0, _⟩ => rfl | ⟨1, _⟩ => rfl)

theorem outRead_apply (t : Fin cfg0.N) (G : S50000x384.Idx → EReal) (p : Fin 1000) (q : Fin 384) :
    ((cfg0.win 12).blk t).view.read (Elt Ideal) G (ix2 p q) = G (ix2 (rowOf t p) q) :=
  congrArg G (blk0 12 t _ _ fun a => match a with | ⟨0, _⟩ => rfl | ⟨1, _⟩ => (Nat.zero_add _).symm)

-- Every entry of the array lies in some point's block: row r in that of point r / 1000.
theorem outCovered (i : S50000x384.Idx) : ∃ t : Fin cfg0.N, (cfg0.win 12).flush t = true ∧ i ∈ ((cfg0.win 12).blk t).view.set := by
  have hi0 : (i 0).val < 50000 := idx2_lt0 i
  have hi1 : (i 1).val < 384 := idx2_lt1 i
  have hN : (i 0).val / 1000 < cfg0.N := lt_of_lt_of_eq (show (i 0).val / 1000 < 50 by omega) N_0.symm
  refine ⟨⟨(i 0).val / 1000, hN⟩, flush0_12 _, ?_⟩
  show i ∈ ((View.whole main_v43).slice (win0_12.rect ⟨(i 0).val / 1000, hN⟩)).set
  rw [View.set_slice_whole, Rect.mem_set_unit]
  intro a
  rw [idx0 _ 12 a]
  match a with
  | ⟨0, _⟩ => show (i 0).val / 1000 * 1000 ≤ (i 0).val ∧ (i 0).val < (i 0).val / 1000 * 1000 + 1000; omega
  | ⟨1, _⟩ => show 0 ≤ (i 1).val ∧ (i 1).val < 0 + 384; omega

-- Grid point t's output block is block t of the projection of the region's entry arrays, and the blocks cover the array.
theorem outArr_eq (c : Dev nD) :
    (dat0 (F := Ideal) V c).arrAt 12 cfg0.N = projArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) :=
  (dat0 (F := Ideal) V c).arrAt_eq_of_cover 12 _ (fun t _ => by
    show (cfg0.win 12).cut (grid0.coords t) ((dat0 (F := Ideal) V c).after 12 t) = _
    rw [after0_12]
    unfold out0_12
    rw [View.canon_unit_zero zeroOffsets]
    simp only [ld00]
    funext j
    obtain ⟨p, q, rfl⟩ : ∃ (p : Fin 1000) (q : Fin 384), j = ix2 p q := ⟨j 0, j 1, eq_ix2 j⟩
    refine (outCut_apply t _ p q).trans (Eq.trans ?_ (outRead_apply t _ p q).symm)
    rw [blockPay_apply]
    show _ = Cert.Spec.edgeProjAt _ _ _ _ _ _ _ _ _ _ _ _ (rowOf t p) q
    unfold Cert.Spec.edgeProjAt
    simp only [rows0_apply, rows1_apply, rows2_apply, rows3_apply, rows4_apply, whole5, whole6, whole7, whole8,
      whole9, whole10, whole11]) outCovered

end Cert.KernelIdeal.Frame

end
-- ==== Proof.GruValue.lean ====
import proofs.«408144_j33174327394705_3_alg».proof.Proof.GruRegion
import proofs.«408144_j33174327394705_3_alg».proof.Proof.EdgeProjValue

noncomputable section

namespace Cert.KernelIdeal.Frame

open Cert.KernelIdeal Cert.KernelIdeal.Gen
open Idealize.ShloMosaic Idealize.ShloMosaic.TcCoe Idealize.SL.Sem
open Idealize.ShloMosaic.Pipeline (Dat)
open Idealize.ShloMosaic.ValueIdx

theorem logisticV_apply {s : Shape} {φ : FTy} (a : FVec Ideal s φ) (i : s.Idx) : logistic a i = Ideal.logistic (a i) := rfl
theorem tanhV_apply {s : Shape} {φ : FTy} (a : FVec Ideal s φ) (i : s.Idx) : tanh a i = Ideal.tanh (a i) := rfl

theorem idx_state (p : Fin 2000) (k : Fin 128) : r1_state.idx (ix2 p k) = (ix2 p (⟨k.val, by omega⟩ : Fin 384) : S2000x384.Idx) := by
  funext a; apply Fin.ext
  match a with
  | ⟨0, _⟩ => show 0 + 1 * p.val = p.val; omega
  | ⟨1, _⟩ => show 0 + 1 * k.val = k.val; omega
theorem idx_inv (p : Fin 2000) (k : Fin 256) : r1_inv.idx (ix2 p k) = (ix2 p (⟨128 + k.val, by omega⟩ : Fin 384) : S2000x384.Idx) := by
  funext a; apply Fin.ext
  match a with
  | ⟨0, _⟩ => show 0 + 1 * p.val = p.val; omega
  | ⟨1, _⟩ => show 128 + 1 * k.val = 128 + k.val; omega

-- From column 128 on the block holds the later piece;
theorem canon_inv (P1 : Vec Ideal S2000x256 .f32) (P2 : Vec Ideal S2000x128 .f32) (p : Fin 2000) (q : Fin 384) (h : ¬ q.val < 128) :
    View.canon ([⟨r1_inv, P1⟩, ⟨r1_state, P2⟩] : List (View.Piece (Elt Ideal) S2000x384 .f32)) (ix2 p q)
      = P1 (ix2 p (⟨q.val - 128, by have := q.isLt; omega⟩ : Fin 256)) := by
  have hq := q.isLt
  have hy : (ix2 p q : S2000x384.Idx) = r1_inv.emb (ix2 p (⟨q.val - 128, by omega⟩ : Fin 256)) := by
    funext a; apply Fin.ext
    match a with
    | ⟨0, _⟩ => show p.val = 0 + 1 * p.val; omega
    | ⟨1, _⟩ => show q.val = 128 + 1 * (q.val - 128); omega
  rw [hy]
  exact View.canon_cons_emb r1_inv P1 [⟨r1_state, P2⟩] _

-- below column 128, which that piece does not reach, the earlier one.
theorem canon_state (P1 : Vec Ideal S2000x256 .f32) (P2 : Vec Ideal S2000x128 .f32) (p : Fin 2000) (q : Fin 384) (h : q.val < 128) :
    View.canon ([⟨r1_inv, P1⟩, ⟨r1_state, P2⟩] : List (View.Piece (Elt Ideal) S2000x384 .f32)) (ix2 p q)
      = P2 (ix2 p (⟨q.val, h⟩ : Fin 128)) := by
  have hnot : (ix2 p q : S2000x384.Idx) ∉ (⟨r1_inv, P1⟩ : View.Piece (Elt Ideal) S2000x384 .f32).1.set := fun hm => by
    have h1 : 128 ≤ q.val := ((Rect.mem_set_unit (inb := inb_S2000x384_S2000x256_0_128)).mp hm 1).1
    omega
  have hy : (ix2 p q : S2000x384.Idx) = r1_state.emb (ix2 p (⟨q.val, h⟩ : Fin 128)) := by
    funext a; apply Fin.ext
    match a with
    | ⟨0, _⟩ => show p.val = 0 + 1 * p.val; omega
    | ⟨1, _⟩ => show q.val = 0 + 1 * q.val; omega
  rw [View.canon_cons_of_not_mem (⟨r1_inv, P1⟩ : View.Piece (Elt Ideal) S2000x384 .f32) [⟨r1_state, P2⟩] hnot, hy]
  exact View.canon_cons_emb r1_state P2 [] _

variable (V : (c : Dev nD) → (b : Ref sig .tc) → Buf (Elt Ideal) ((c : Thread nD τ).loc b))

def memOut (c : Dev nD) : Cert.Spec.Arr2 100000 384 := fun i =>
  Cert.Spec.memRowAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (i 0) (i 1)

theorem idx1 : ∀ (t : Fin cfg1.N) (w : Fin cfg1.W) (a : Fin (cfg1.win w).shape.rank),
    (cfg1.win w).index t a * (cfg1.win w).size a = if (w.val < 3 ∨ w.val = 6) ∧ a.val = 0 then 2000 * t.val else 0 :=
  (by decide +kernel : ∀ t : Fin grid1.N, _)

def nodeAt (t : Fin cfg1.N) (p : Fin 2000) : Fin 100000 :=
  ⟨2000 * t.val + p.val, by have ht : t.val < 50 := lt_of_lt_of_eq t.isLt N_1; have := p.isLt; omega⟩

theorem blk1 (w : Fin cfg1.W) (t : Fin cfg1.N) (y : ((cfg1.win w).xblock (grid1.coords t)).Idx) (z : (cfg1.win w).shape.Idx)
    (h : ∀ a, (z a).val = (if (w.val < 3 ∨ w.val = 6) ∧ a.val = 0 then 2000 * t.val else 0) + (y a).val) :
    ((cfg1.win w).rect t).emb y = z :=
  funext fun a => Fin.ext (((cfg1.win w).rect_emb_val t y a).trans (by rw [idx1 t w a, h a]))

theorem read_totals (c : Dev nD) (t : Fin cfg1.N) (p : Fin 2000) (q : Fin 384) :
    iblk1 V c 0 t (ix2 p q) = V c (Pipeline.arrRef spec1 0) (ix2 (nodeAt t p) q) :=
  congrArg (V c (Pipeline.arrRef spec1 0)) (blk1 0 t _ _ fun a => match a with | ⟨0, _⟩ => rfl | ⟨1, _⟩ => (Nat.zero_add _).symm)
theorem read_recips (c : Dev nD) (t : Fin cfg1.N) (p : Fin 2000) (q : Fin 1) :
    iblk1 V c 1 t (ix2 p q) = V c (Pipeline.arrRef spec1 1) (ix2 (nodeAt t p) q) :=
  congrArg (V c (Pipeline.arrRef spec1 1)) (blk1 1 t _ _ fun a => match a with | ⟨0, _⟩ => rfl | ⟨1, _⟩ => (Nat.zero_add _).symm)
theorem read_memIn (c : Dev nD) (t : Fin cfg1.N) (p : Fin 2000) (q : Fin 384) :
    iblk1 V c 2 t (ix2 p q) = V c (Pipeline.arrRef spec1 2) (ix2 (nodeAt t p) q) :=
  congrArg (V c (Pipeline.arrRef spec1 2)) (blk1 2 t _ _ fun a => match a with | ⟨0, _⟩ => rfl | ⟨1, _⟩ => (Nat.zero_add _).symm)
theorem read_hidWt (c : Dev nD) (t : Fin cfg1.N) : iblk1 V c 3 t = V c (Pipeline.arrRef spec1 3) :=
  funext fun y => congrArg (V c (Pipeline.arrRef spec1 3)) (blk1 3 t y y fun a => (Nat.zero_add _).symm)
theorem read_inBias (c : Dev nD) (t : Fin cfg1.N) : iblk1 V c 4 t = V c (Pipeline.arrRef spec1 4) :=
  funext fun y => congrArg (V c (Pipeline.arrRef spec1 4)) (blk1 4 t y y fun a => (Nat.zero_add _).symm)
theorem read_hidBias (c : Dev nD) (t : Fin cfg1.N) : iblk1 V c 5 t = V c (Pipeline.arrRef spec1 5) :=
  funext fun y => congrArg (V c (Pipeline.arrRef spec1 5)) (blk1 5 t y y fun a => (Nat.zero_add _).symm)

-- Grid point t's output block is block t of the new memory: the gated update below column 128, the old row from there on.
theorem flushed_memOut (c : Dev nD) (t : Fin cfg1.N) :
    (dat1 (F := Ideal) V c).flushed 6 t = ((cfg1.win 6).blk t).view.read (Elt Ideal) (memOut V c) := by
  show (cfg1.win 6).cut (grid1.coords t) ((dat1 V c).after 6 t) = _
  rw [after1_6]
  funext y
  obtain ⟨p, q, rfl⟩ : ∃ (p : Fin 2000) (q : Fin 384), y = ix2 p q := ⟨y 0, y 1, eq_ix2 y⟩
  have hemb : ((cfg1.win 6).rect t).emb (ix2 p q) = (ix2 (nodeAt t p) q : S100000x384.Idx) :=
    blk1 6 t _ _ fun a => match a with | ⟨0, _⟩ => rfl | ⟨1, _⟩ => (Nat.zero_add _).symm
  show out1_6 (iblk1 V c 0 t) (iblk1 V c 1 t) (iblk1 V c 2 t) (iblk1 V c 3 t) (iblk1 V c 4 t) (iblk1 V c 5 t) (ix2 p q) = memOut V c (((cfg1.win 6).rect t).emb (ix2 p q))
  rw [hemb]
  show _ = Cert.Spec.memRowAt _ _ _ _ _ _ (nodeAt t p) q
  unfold Cert.Spec.memRowAt out1_6
  by_cases h : q.val < 128
  · rw [dif_pos h, canon_state _ _ p q h]
    unfold k1_pay2 Cert.Spec.newStateAt Cert.Spec.gateIn Cert.Spec.gateHid
    simp only [ld00]
    simp only [shapeCast_self, addf_apply, mulf_apply, subf_apply, truncf_apply, broadcast_apply, logisticV_apply, tanhV_apply,
      slice2_axis1_eq, Nat.zero_add, broadcastTo_a1_ab_apply, broadcastTo_1b_ab_apply,
      show dot_S2000x128_S128x384_S2000x384_1_0_0_1_n_n = DotDims.plain 2000 128 384 from rfl, mm_plain,
      View.ld, idx_state, read_totals, read_recips, read_memIn, read_hidWt, read_inBias, read_hidBias]
    rfl
  · rw [dif_neg h, canon_inv _ _ p q h]
    unfold k1_pay1
    rw [shapeCast_self]
    show iblk1 V c 2 t (r1_inv.idx (ix2 p ⟨q.val - 128, _⟩)) = _
    rw [idx_inv, read_memIn]
    exact congrArg (fun z => V c (Pipeline.arrRef spec1 2) (ix2 (nodeAt t p) z)) (Fin.ext (by show 128 + (q.val - 128) = q.val; omega))

-- Every entry of the array lies in some point's block: row r in that of point r / 2000.
theorem covered6 (i : S100000x384.Idx) :
    ∃ t : Fin cfg1.N, (cfg1.win 6).flush t = true ∧ i ∈ ((cfg1.win 6).blk t).view.set := by
  have h0 : (i 0).val < 100000 := (i 0).isLt
  have h1 : (i 1).val < 384 := (i 1).isLt
  have hN : (i 0).val / 2000 < cfg1.N := lt_of_lt_of_eq (show (i 0).val / 2000 < 50 by omega) N_1.symm
  refine ⟨⟨(i 0).val / 2000, hN⟩, flush1_6 _, ?_⟩
  show i ∈ ((View.whole main_v111).slice (win1_6.rect ⟨(i 0).val / 2000, hN⟩)).set
  rw [View.set_slice_whole, Rect.mem_set_unit]
  intro a
  rw [idx1 _ 6 a]
  match a with
  | ⟨0, _⟩ => show 2000 * ((i 0).val / 2000) ≤ (i 0).val ∧ (i 0).val < 2000 * ((i 0).val / 2000) + 2000; omega
  | ⟨1, _⟩ => show 0 ≤ (i 1).val ∧ (i 1).val < 0 + 384; omega

theorem memRow_final (V : (c : Dev nD) → (b : Ref sig .tc) → Buf (Elt Ideal) ((c : Thread nD τ).loc b)) (c : Dev nD)
    (n : Fin 100000) (col : Fin 384) :
    (dat1 (F := Ideal) V c).arrAt 6 cfg1.N (ValueIdx.ix2 n col)
      = Cert.Spec.memRowAt (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) n col :=
  congrFun ((dat1 (F := Ideal) V c).arrAt_eq_of_cover 6 (memOut V c) (fun t _ => flushed_memOut V c t) covered6) (ValueIdx.ix2 n col)

end Cert.KernelIdeal.Frame

end
-- ==== Proof.HostBefore.lean ====
import proofs.«408144_j33174327394705_3_alg».proof.Proof.Gen.KernelIdeal.Launch
import Idealize.ShloMosaic.Lib.StableHlo.Run
noncomputable section
namespace Cert.KernelIdeal.Host
open Cert.KernelIdeal Cert.KernelIdeal.Gen Idealize.ShloMosaic Idealize.ShloMosaic.TcCoe Idealize.ShloMosaic.StableHlo

variable {F : FTy → Type} [FloatOps F]

def wrapIds (a : Vec F S50000 .i32) : Vec F S50000 .i32 :=
  select (cmpi .slt a (broadcastInDim S50000 ![] bcast_S_S50000 (constantI S_ 32 0#32)))
    (addi a (broadcastInDim S50000 ![] bcast_S_S50000 (constantI S_ 32 100000#32))) a

def idTable (a : Vec F S50000 .i32) : Vec F S50000x1 .i32 :=
  broadcastInDim S50000x1 ![0] bcast_S50000_S50000x1_0 (wrapIds a)

def memRows (mem : Vec F S100000x384 .f32) (a : Vec F S50000 .i32) : Vec F S50000x384 .f32 :=
  Host.gather gather_S100000x384_S50000x1_S50000x384_1_0_n_n_0_1_1384 mem (idTable a)

def gapCol (lastUpd : Vec F S100000 .i32) (src t : Vec F S50000 .i32) : Vec F S50000x1 .f32 :=
  shapeCast S50000x1 (sitofp .f32 (subi t (Host.gather gather_S100000_S50000x1_S50000_n_0_n_n_0_1_1 lastUpd (idTable src)))) shapeCasts_S50000_S50000x1

def wT (w : Vec F S384x1280 .f32) : Vec F S1280x384 .f32 :=
  transpose S1280x384 [1, 0] w transposes_S384x1280_S1280x384_1_0

variable (W : Valuation τ sig (Elt F))

set_option maxRecDepth 4000

theorem after_main_v6 : StableHlo.after hostOps0 W main_v6
    = memRows (W main_arg6) (W main_arg1) := by
  after_results_simp
  rfl

theorem after_main_v13 : StableHlo.after hostOps0 W main_v13
    = memRows (W main_arg6) (W main_arg2) := by
  after_results_simp
  rfl

theorem after_main_v20 : StableHlo.after hostOps0 W main_v20
    = memRows (W main_arg6) (W main_arg3) := by
  after_results_simp
  rfl

theorem after_main_v30 : StableHlo.after hostOps0 W main_v30
    = gapCol (W main_arg7) (W main_arg1) (W main_arg4) := by
  after_results_simp
  rfl

theorem after_main_v31 : StableHlo.after hostOps0 W main_v31
    = shapeCast S1x64 (W main_arg9 : Vec F S64 .f32) shapeCasts_S64_S1x64 := by
  after_results
  rfl

theorem after_main_v34 : StableHlo.after hostOps0 W main_v34
    = truncf .bf16 (extractStridedSlice S384x384 ![0, 0] (wT (W main_arg10)) slices_S1280x384_S384x384_0_0) bitsLt_bf16_f32 := by
  after_results
  rfl

theorem after_main_v36 : StableHlo.after hostOps0 W main_v36
    = truncf .bf16 (extractStridedSlice S384x384 ![384, 0] (wT (W main_arg10)) slices_S1280x384_S384x384_384_0) bitsLt_bf16_f32 := by
  after_results
  rfl

theorem after_main_v38 : StableHlo.after hostOps0 W main_v38
    = truncf .bf16 (extractStridedSlice S384x384 ![768, 0] (wT (W main_arg10)) slices_S1280x384_S384x384_768_0) bitsLt_bf16_f32 := by
  after_results
  rfl

theorem after_main_v40 : StableHlo.after hostOps0 W main_v40
    = truncf .bf16 (extractStridedSlice S64x384 ![1152, 0] (wT (W main_arg10)) slices_S1280x384_S64x384_1152_0) bitsLt_bf16_f32 := by
  after_results
  rfl

theorem after_main_v42 : StableHlo.after hostOps0 W main_v42
    = truncf .bf16 (extractStridedSlice S64x384 ![1216, 0] (wT (W main_arg10)) slices_S1280x384_S64x384_1216_0) bitsLt_bf16_f32 := by
  after_results
  rfl

end Cert.KernelIdeal.Host
end
-- ==== Proof.HostBetween.lean ====
import proofs.«408144_j33174327394705_3_alg».proof.Proof.Gen.KernelIdeal.Launch
import Idealize.ShloMosaic.Lib.StableHlo.Run
noncomputable section
namespace Cert.KernelIdeal.Host
open Cert.KernelIdeal Cert.KernelIdeal.Gen Idealize.ShloMosaic Idealize.ShloMosaic.TcCoe Idealize.ShloMosaic.StableHlo

variable {F : FTy → Type} [FloatOps F] (W : Valuation τ sig (Elt F))

def wrap100 (x : IVec S100000 32) : IVec S100000 32 :=
  select (cmpi .slt x (broadcastInDim S100000 ![] bcast_S_S100000 (constantI S_ 32 0#32)))
    (addi x (broadcastInDim S100000 ![] bcast_S_S100000 (constantI S_ 32 100000#32))) x

def wrap150 (x : IVec S150000 32) : IVec S150000 32 :=
  select (cmpi .slt x (broadcastInDim S150000 ![] bcast_S_S150000 (constantI S_ 32 0#32)))
    (addi x (broadcastInDim S150000 ![] bcast_S_S150000 (constantI S_ 32 100000#32))) x

def nodeIdx (a0 : IVec S100000 32) : IVec S100000x1 32 :=
  broadcastInDim S100000x1 ![0] bcast_S100000_S100000x1_0 (wrap100 a0)

def cat3 (a1 a2 a3 : IVec S50000 32) : IVec S150000 32 :=
  concatenate S150000 0 [⟨S50000, a1⟩, ⟨S50000, a2⟩, ⟨S50000, a3⟩] concatenates_S50000_S50000_S50000_S150000_d0

def idsIdx (a1 a2 a3 : IVec S50000 32) : IVec S150000x1 32 :=
  broadcastInDim S150000x1 ![0] bcast_S150000_S150000x1_0 (wrap150 (cat3 a1 a2 a3))

def indexTable (a0 : IVec S100000 32) : IVec S100000 32 :=
  Host.scatter scatter_S100000_S100000x1_S100000_n_0_0_1 (fun _ b => b)
    (broadcastInDim S100000 ![] bcast_S_S100000 (constantI S_ 32 0#32)) (nodeIdx a0) (iotaInDim S100000 32 0)

def segIds (a0 : IVec S100000 32) (a1 a2 a3 : IVec S50000 32) : IVec S150000 32 :=
  Host.gather gather_S100000_S150000x1_S150000_n_0_n_n_0_1_1 (indexTable a0) (idsIdx a1 a2 a3)

def segIdx (a0 : IVec S100000 32) (a1 a2 a3 : IVec S50000 32) : IVec S150000x1 32 :=
  broadcastInDim S150000x1 ![0] bcast_S150000_S150000x1_0 (wrap150 (segIds a0 a1 a2 a3))

def cat3f (p q r : Vec F S50000x384 .f32) : Vec F S150000x384 .f32 :=
  concatenate S150000x384 0 [⟨S50000x384, p⟩, ⟨S50000x384, q⟩, ⟨S50000x384, r⟩]
    concatenates_S50000x384_S50000x384_S50000x384_S150000x384_d0

theorem result_v53 (G : Valuation τ sig (Elt F)) (hxs) (hy) :
    (StableHlo.nary ![main_arg1, main_arg2, main_arg3] main_v53
        (fun u => concatenate S150000 0 [⟨S50000, u 0⟩, ⟨S50000, u 1⟩, ⟨S50000, u 2⟩] concatenates_S50000_S50000_S50000_S150000_d0)
        hxs hy).result G (no_index main_v53)
      = cat3 (G main_arg1) (G main_arg2) (G main_arg3) := nary_result ..

theorem result_v61 (G : Valuation τ sig (Elt F)) (hxs) (hy) :
    (StableHlo.nary ![main_v43, main_v43, main_v43] main_v61
        (fun u => concatenate S150000x384 0 [⟨S50000x384, u 0⟩, ⟨S50000x384, u 1⟩, ⟨S50000x384, u 2⟩] concatenates_S50000x384_S50000x384_S50000x384_S150000x384_d0)
        hxs hy).result G (no_index main_v61)
      = cat3f (F := F) (G main_v43) (G main_v43) (G main_v43) := nary_result ..

theorem result_v84 (G : Valuation τ sig (Elt F)) (hxs) (hy) :
    (StableHlo.nary ![main_arg4, main_arg4, main_arg4] main_v84
        (fun u => concatenate S150000 0 [⟨S50000, u 0⟩, ⟨S50000, u 1⟩, ⟨S50000, u 2⟩] concatenates_S50000_S50000_S50000_S150000_d0)
        hxs hy).result G (no_index main_v84)
      = cat3 (G main_arg4) (G main_arg4) (G main_arg4) := nary_result ..

macro "host_results" : tactic =>
  `(tactic| (simp (disch := decide) only [after_cons, after_nil,
      nullary_result', unary_result', binary_result', ternary_result', reshape_result',
      result_v53, result_v61, result_v84,
      nullary_result_ne', unary_result_ne', binary_result_ne', ternary_result_ne', reshape_result_ne', nary_result_ne']))

theorem after_main_v69 : StableHlo.after hostOps1 W main_v69 =
    (Host.scatterAdd scatter_S100000x384_S150000x1_S150000x384_1_0_0_1
      (broadcastInDim S100000x384 ![] bcast_S_S100000x384 (constant (F := F) S_ .f32 0x00000000#32))
      (segIdx (W main_arg0) (W main_arg1) (W main_arg2) (W main_arg3))
      (concatenate S150000x384 0 [⟨S50000x384, W main_v43⟩, ⟨S50000x384, W main_v43⟩, ⟨S50000x384, W main_v43⟩] concatenates_S50000x384_S50000x384_S50000x384_S150000x384_d0)
      : Vec F S100000x384 .f32) := by
  host_results
  rfl

theorem after_main_v83 : StableHlo.after hostOps1 W main_v83 =
    (shapeCast S100000x1
      (Host.divf (broadcastInDim S100000 ![] bcast_S_S100000 (constant (F := F) S_ .f32 0x3F800000#32))
        (maximumf
          (Host.scatterAdd scatter_S100000_S150000x1_S150000_n_0_0_1
            (broadcastInDim S100000 ![] bcast_S_S100000 (constant (F := F) S_ .f32 0x00000000#32))
            (segIdx (W main_arg0) (W main_arg1) (W main_arg2) (W main_arg3))
            (broadcastInDim S150000 ![] bcast_S_S150000 (constant (F := F) S_ .f32 0x3F800000#32)))
          (broadcastInDim S100000 ![] bcast_S_S100000 (constant (F := F) S_ .f32 0x3F800000#32))))
      shapeCasts_S100000_S100000x1 : Vec F S100000x1 .f32) := by
  host_results
  rfl

theorem after_main_v99 : StableHlo.after hostOps1 W main_v99 =
    (Host.gather gather_S100000_S100000x1_S100000_n_0_n_n_0_1_1
      (Host.scatter scatter_S100000_S150000x1_S150000_n_0_0_1 IntOp.maxsi
        (broadcastInDim S100000 ![] bcast_S_S100000 (constantI S_ 32 0#32))
        (idsIdx (W main_arg1) (W main_arg2) (W main_arg3))
        (cat3 (W main_arg4) (W main_arg4) (W main_arg4)))
      (nodeIdx (W main_arg0)) : Vec F S100000 .i32) := by
  host_results
  rfl

theorem after_main_v106 : StableHlo.after hostOps1 W main_v106 =
    (Host.gather gather_S100000x384_S100000x1_S100000x384_1_0_n_n_0_1_1384 (W main_arg6)
      (nodeIdx (W main_arg0)) : Vec F S100000x384 .f32) := by
  host_results
  rfl

theorem after_main_v108 : StableHlo.after hostOps1 W main_v108 =
    (truncf .bf16 (transpose S128x384 [1, 0] (W main_arg11) transposes_S384x128_S128x384_1_0) bitsLt_bf16_f32
      : Vec F S128x384 .bf16) := by
  host_results

theorem after_main_v109 : StableHlo.after hostOps1 W main_v109 =
    (shapeCast S1x384 (W main_arg12) shapeCasts_S384_S1x384 : Vec F S1x384 .f32) := by
  host_results
  rfl

theorem after_main_v110 : StableHlo.after hostOps1 W main_v110 =
    (shapeCast S1x384 (W main_arg13) shapeCasts_S384_S1x384 : Vec F S1x384 .f32) := by
  host_results
  rfl

end Cert.KernelIdeal.Host

end
-- ==== Proof.KernelTerms.lean ====
import proofs.«408144_j33174327394705_3_alg».proof.Proof.HostBefore
import proofs.«408144_j33174327394705_3_alg».proof.Proof.HostBetween
import proofs.«408144_j33174327394705_3_alg».proof.Proof.Spec
noncomputable section
namespace Cert.KernelIdeal.Terms
open Cert.KernelIdeal Cert.KernelIdeal.Gen Idealize.ShloMosaic Idealize.ShloMosaic.TcCoe Idealize.ShloMosaic.ValueIdx

-- The first stage's formula at the gathered rows, the raw features, the time gaps and the five bands of the input weights.
def projK (a0 : (⟨S100000, .i32⟩ : BufTy).Contents (Elt Ideal)) (a1 a2 a3 a4 : (⟨S50000, .i32⟩ : BufTy).Contents (Elt Ideal))
    (a5 : (⟨S50000x64, .f32⟩ : BufTy).Contents (Elt Ideal)) (a6 : (⟨S100000x384, .f32⟩ : BufTy).Contents (Elt Ideal))
    (a7 : (⟨S100000, .i32⟩ : BufTy).Contents (Elt Ideal)) (a8 : (⟨S1x64, .f32⟩ : BufTy).Contents (Elt Ideal))
    (a9 : (⟨S64, .f32⟩ : BufTy).Contents (Elt Ideal)) (a10 : (⟨S384x1280, .f32⟩ : BufTy).Contents (Elt Ideal))
    (a11 : (⟨S384x128, .f32⟩ : BufTy).Contents (Elt Ideal)) (a12 a13 : (⟨S384, .f32⟩ : BufTy).Contents (Elt Ideal))
    (e : Fin 50000) (g : Fin 384) : EReal :=
  Cert.Spec.edgeProjAt
    (Host.memRows a6 a1)
    (Host.memRows a6 a2)
    (Host.memRows a6 a3)
    a5
    (Host.gapCol a7 a1 a4)
    (truncf (F := Ideal) .bf16 (extractStridedSlice S384x384 ![0, 0] (Host.wT a10) slices_S1280x384_S384x384_0_0 : Vec Ideal S384x384 .f32) bitsLt_bf16_f32 : Vec Ideal S384x384 .bf16)
    (truncf (F := Ideal) .bf16 (extractStridedSlice S384x384 ![384, 0] (Host.wT a10) slices_S1280x384_S384x384_384_0 : Vec Ideal S384x384 .f32) bitsLt_bf16_f32 : Vec Ideal S384x384 .bf16)
    (truncf (F := Ideal) .bf16 (extractStridedSlice S384x384 ![768, 0] (Host.wT a10) slices_S1280x384_S384x384_768_0 : Vec Ideal S384x384 .f32) bitsLt_bf16_f32 : Vec Ideal S384x384 .bf16)
    (truncf (F := Ideal) .bf16 (extractStridedSlice S64x384 ![1152, 0] (Host.wT a10) slices_S1280x384_S64x384_1152_0 : Vec Ideal S64x384 .f32) bitsLt_bf16_f32 : Vec Ideal S64x384 .bf16)
    (truncf (F := Ideal) .bf16 (extractStridedSlice S64x384 ![1216, 0] (Host.wT a10) slices_S1280x384_S64x384_1216_0 : Vec Ideal S64x384 .f32) bitsLt_bf16_f32 : Vec Ideal S64x384 .bf16)
    a8
    (shapeCast S1x64 a9 shapeCasts_S64_S1x64 : Vec Ideal S1x64 .f32)
    e g

variable (a0 : (⟨S100000, .i32⟩ : BufTy).Contents (Elt Ideal)) (a1 a2 a3 a4 : (⟨S50000, .i32⟩ : BufTy).Contents (Elt Ideal))
  (a5 : (⟨S50000x64, .f32⟩ : BufTy).Contents (Elt Ideal)) (a6 : (⟨S100000x384, .f32⟩ : BufTy).Contents (Elt Ideal))
  (a7 : (⟨S100000, .i32⟩ : BufTy).Contents (Elt Ideal)) (a8 : (⟨S1x64, .f32⟩ : BufTy).Contents (Elt Ideal))
  (a9 : (⟨S64, .f32⟩ : BufTy).Contents (Elt Ideal)) (a10 : (⟨S384x1280, .f32⟩ : BufTy).Contents (Elt Ideal))
  (a11 : (⟨S384x128, .f32⟩ : BufTy).Contents (Elt Ideal)) (a12 a13 : (⟨S384, .f32⟩ : BufTy).Contents (Elt Ideal))

def projArrK : (⟨S50000x384, .f32⟩ : BufTy).Contents (Elt Ideal) :=
  fun i => projK a0 a1 a2 a3 a4 a5 a6 a7 a8 a9 a10 a11 a12 a13 ⟨(i 0).val, idx2_lt0 i⟩ ⟨(i 1).val, idx2_lt1 i⟩

theorem projArrK_apply (e : Fin 50000) (g : Fin 384) :
    projArrK a0 a1 a2 a3 a4 a5 a6 a7 a8 a9 a10 a11 a12 a13 (ix2 e g) = projK a0 a1 a2 a3 a4 a5 a6 a7 a8 a9 a10 a11 a12 a13 e g := rfl

def totOf (P : Vec Ideal S50000x384 .f32) : Vec Ideal S100000x384 .f32 :=
  Host.scatterAdd scatter_S100000x384_S150000x1_S150000x384_1_0_0_1
    (broadcastInDim S100000x384 ![] bcast_S_S100000x384 (constant (F := Ideal) S_ .f32 0x00000000#32))
    (Host.segIdx a0 a1 a2 a3)
    (concatenate S150000x384 0 [⟨S50000x384, P⟩, ⟨S50000x384, P⟩, ⟨S50000x384, P⟩]
      concatenates_S50000x384_S50000x384_S50000x384_S150000x384_d0)

def totK : Vec Ideal S100000x384 .f32 :=
  totOf a0 a1 a2 a3 (projArrK a0 a1 a2 a3 a4 a5 a6 a7 a8 a9 a10 a11 a12 a13)

def invCountK : Vec Ideal S100000x1 .f32 :=
  shapeCast S100000x1
    (Host.divf (broadcastInDim S100000 ![] bcast_S_S100000 (constant (F := Ideal) S_ .f32 0x3F800000#32))
      (maximumf
        (Host.scatterAdd scatter_S100000_S150000x1_S150000_n_0_0_1
          (broadcastInDim S100000 ![] bcast_S_S100000 (constant (F := Ideal) S_ .f32 0x00000000#32))
          (Host.segIdx a0 a1 a2 a3)
          (broadcastInDim S150000 ![] bcast_S_S150000 (constant (F := Ideal) S_ .f32 0x3F800000#32)))
        (broadcastInDim S100000 ![] bcast_S_S100000 (constant (F := Ideal) S_ .f32 0x3F800000#32))))
    shapeCasts_S100000_S100000x1

def oldRowsK : Vec Ideal S100000x384 .f32 :=
  Host.gather gather_S100000x384_S100000x1_S100000x384_1_0_n_n_0_1_1384 a6 (Host.nodeIdx a0)

def hidWK : Vec Ideal S128x384 .bf16 :=
  truncf (F := Ideal) .bf16 (transpose S128x384 [1, 0] a11 transposes_S384x128_S128x384_1_0 : Vec Ideal S128x384 .f32) bitsLt_bf16_f32

def biasRowK (b : (⟨S384, .f32⟩ : BufTy).Contents (Elt Ideal)) : Vec Ideal S1x384 .f32 :=
  shapeCast S1x384 b shapeCasts_S384_S1x384

-- The second stage's formula at the per-node sums, the reciprocal counts, the old rows, the hidden weights and the biases.
def memK (n : Fin 100000) (col : Fin 384) : EReal :=
  Cert.Spec.memRowAt (totK a0 a1 a2 a3 a4 a5 a6 a7 a8 a9 a10 a11 a12 a13) (invCountK a0 a1 a2 a3) (oldRowsK a0 a6) (hidWK a11) (biasRowK a12) (biasRowK a13) n col

def memArrK : (⟨S100000x384, .f32⟩ : BufTy).Contents (Elt Ideal) :=
  fun i => memK a0 a1 a2 a3 a4 a5 a6 a7 a8 a9 a10 a11 a12 a13 ⟨(i 0).val, idx2_lt0 i⟩ ⟨(i 1).val, idx2_lt1 i⟩

theorem memArrK_apply (n : Fin 100000) (col : Fin 384) :
    memArrK a0 a1 a2 a3 a4 a5 a6 a7 a8 a9 a10 a11 a12 a13 (ix2 n col) = memK a0 a1 a2 a3 a4 a5 a6 a7 a8 a9 a10 a11 a12 a13 n col := rfl

def lastUpdK : Vec Ideal S100000 .i32 :=
  Host.gather gather_S100000_S100000x1_S100000_n_0_n_n_0_1_1
    (Host.scatter scatter_S100000_S150000x1_S150000_n_0_0_1 IntOp.maxsi
      (broadcastInDim S100000 ![] bcast_S_S100000 (constantI S_ 32 0#32))
      (Host.idsIdx a1 a2 a3) (Host.cat3 a4 a4 a4))
    (Host.nodeIdx a0)

end Cert.KernelIdeal.Terms

end
-- ==== Proof.KernelValue.lean ====
import proofs.«408144_j33174327394705_3_alg».proof.Proof.MainRun
import proofs.«408144_j33174327394705_3_alg».proof.Proof.GruValue
import proofs.«408144_j33174327394705_3_alg».proof.Proof.KernelTerms
noncomputable section
namespace Cert.KernelIdeal.Frame
open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

-- An argument is written neither before nor in the first region, so after it it still holds its launch contents.
theorem W2_arg (c : Dev nD) (r : Ref sig .tc) (h0 : ∀ w, Pipeline.arrRef spec0 w ≠ r := by decide) (h1 : r ∉ written0 := by decide) :
    W2 (F := Ideal) m ρ c (Proc.devRef .tc r) = m ((c.tc : Thread nD τ).loc r) :=
  (W2_of_ne m ρ c r h0).trans (W1_keeps m ρ c r h1)

-- The first region's output is the projection formula at its entry arrays, each the first host stretch's function of the arguments.
theorem kernel_proj (c : Dev nD) : W2 (F := Ideal) m ρ c (Proc.devRef .tc main_v43)
    = Terms.projArrK (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) :=
  (W2_arr m ρ c 12).trans <| (outArr_eq (V1 m ρ) c).trans <|
    congr (congr (congr (congr (congr (congr (congr (congr (congr (congr (congr (congrArg projArr (Host.after_main_v6 (W0 m ρ c))) (Host.after_main_v13 (W0 m ρ c))) (Host.after_main_v20 (W0 m ρ c))) (W1_keeps m ρ c main_arg5 (by decide))) (Host.after_main_v30 (W0 m ρ c))) (Host.after_main_v34 (W0 m ρ c))) (Host.after_main_v36 (W0 m ρ c))) (Host.after_main_v38 (W0 m ρ c))) (Host.after_main_v40 (W0 m ρ c))) (Host.after_main_v42 (W0 m ρ c))) (W1_keeps m ρ c main_arg8 (by decide))) (Host.after_main_v31 (W0 m ρ c))

-- The second region's output is the memory formula at its entry arrays, each the second host stretch's function of the arguments and of the projection.
theorem kernel_mem (c : Dev nD) : W4 (F := Ideal) m ρ c (Proc.devRef .tc main_v111)
    = Terms.memArrK (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) :=
  funext fun i => (congrArg (W4 (F := Ideal) m ρ c (Proc.devRef .tc main_v111)) (eq_ix2 i)).trans <|
    (congrFun (W4_main_v111 m ρ c) _).trans <| (memRow_final (V3 m ρ) c (i 0) (i 1)).trans <|
    congrFun (congrFun (congr (congr (congr (congr (congr (congrArg Cert.Spec.memRowAt
      ((Host.after_main_v69 (W2 m ρ c)).trans (congr (congr (congr (congr (congrArg Terms.totOf (W2_arg m ρ c main_arg0)) (W2_arg m ρ c main_arg1)) (W2_arg m ρ c main_arg2)) (W2_arg m ρ c main_arg3)) (kernel_proj m ρ c) :)))
      ((Host.after_main_v83 (W2 m ρ c)).trans (congr (congr (congr (congrArg Terms.invCountK (W2_arg m ρ c main_arg0)) (W2_arg m ρ c main_arg1)) (W2_arg m ρ c main_arg2)) (W2_arg m ρ c main_arg3) :)))
      ((Host.after_main_v106 (W2 m ρ c)).trans (congr (congrArg Terms.oldRowsK (W2_arg m ρ c main_arg0)) (W2_arg m ρ c main_arg6) :)))
      ((Host.after_main_v108 (W2 m ρ c)).trans (congrArg Terms.hidWK (W2_arg m ρ c main_arg11) :)))
      ((Host.after_main_v109 (W2 m ρ c)).trans (congrArg Terms.biasRowK (W2_arg m ρ c main_arg12) :)))
      ((Host.after_main_v110 (W2 m ρ c)).trans (congrArg Terms.biasRowK (W2_arg m ρ c main_arg13) :))) (i 0)) (i 1)

theorem kernel_lastUpd (c : Dev nD) : W4 (F := Ideal) m ρ c (Proc.devRef .tc main_v99)
    = Terms.lastUpdK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_main_v99 m ρ c).trans <| (Host.after_main_v99 (W2 m ρ c)).trans
    (congr (congr (congr (congr (congrArg Terms.lastUpdK (W2_arg m ρ c main_arg0)) (W2_arg m ρ c main_arg1)) (W2_arg m ρ c main_arg2)) (W2_arg m ρ c main_arg3)) (W2_arg m ρ c main_arg4) :)

theorem kernel_run : θ_run defs (onTc (τ := τ) (main (F := Ideal))) ⟨m, fun _ => 0, ρ⟩ (fun r => ∀ c : Dev nD,
      r.2.mem ((c.tc : Thread nD τ).loc main_v111) = Terms.memArrK (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
      ∧ r.2.mem ((c.tc : Thread nD τ).loc main_v99) = Terms.lastUpdK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v111 (by decide))).trans (kernel_mem m ρ c),
     (h c _ (mem_uc main_v99 (by decide))).trans (kernel_lastUpd m ρ c),
     (h c _ (mem_uc main_arg0 (by decide))).trans (W4_keeps m ρ c _ (by decide)),
     (h c _ (mem_uc main_arg1 (by decide))).trans (W4_keeps m ρ c _ (by decide)),
     (h c _ (mem_uc main_arg2 (by decide))).trans (W4_keeps m ρ c _ (by decide)),
     (h c _ (mem_uc main_arg3 (by decide))).trans (W4_keeps m ρ c _ (by decide)),
     (h c _ (mem_uc main_arg4 (by decide))).trans (W4_keeps m ρ c _ (by decide)),
     (h c _ (mem_uc main_arg5 (by decide))).trans (W4_keeps m ρ c _ (by decide)),
     (h c _ (mem_uc main_arg6 (by decide))).trans (W4_keeps m ρ c _ (by decide)),
     (h c _ (mem_uc main_arg7 (by decide))).trans (W4_keeps m ρ c _ (by decide)),
     (h c _ (mem_uc main_arg8 (by decide))).trans (W4_keeps m ρ c _ (by decide)),
     (h c _ (mem_uc main_arg9 (by decide))).trans (W4_keeps m ρ c _ (by decide)),
     (h c _ (mem_uc main_arg10 (by decide))).trans (W4_keeps m ρ c _ (by decide)),
     (h c _ (mem_uc main_arg11 (by decide))).trans (W4_keeps m ρ c _ (by decide)),
     (h c _ (mem_uc main_arg12 (by decide))).trans (W4_keeps m ρ c _ (by decide)),
     (h c _ (mem_uc main_arg13 (by decide))).trans (W4_keeps m ρ c _ (by decide))⟩) (run_main m ρ)

end Cert.KernelIdeal.Frame

end
-- ==== Proof.RefReadP.lean ====
import proofs.«408144_j33174327394705_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-! The reference program one operation at a time: `val_main_vN` is what operation `N` writes, as a function of the
    program's arguments; `val_main_vN_apply` reads it at an index from its operands at an index. -/

def val_main_c : Vec F S_ .i32 :=
  constantI S_ 32 0#32

def val_main_v0 : Vec F S100000 .i32 :=
  broadcastInDim S100000 ![] bcast_S_S100000 (val_main_c (F := F))

def val_main_v1 (x0 : Vec F S100000 .i32) : Vec F S100000 .i1 :=
  cmpi .slt x0 (val_main_v0 (F := F))

def val_main_c_0 : Vec F S_ .i32 :=
  constantI S_ 32 100000#32

def val_main_v2 : Vec F S100000 .i32 :=
  broadcastInDim S100000 ![] bcast_S_S100000 (val_main_c_0 (F := F))

def val_main_v3 (x0 : Vec F S100000 .i32) : Vec F S100000 .i32 :=
  addi x0 (val_main_v2 (F := F))

def val_main_v4 (x0 : Vec F S100000 .i32) : Vec F S100000 .i32 :=
  select (val_main_v1 x0) (val_main_v3 x0) x0

def val_main_v5 (x0 : Vec F S100000 .i32) : Vec F S100000x1 .i32 :=
  broadcastInDim S100000x1 ![0] bcast_S100000_S100000x1_0 (val_main_v4 x0)

def val_main_c_1 : Vec F S_ .i32 :=
  constantI S_ 32 0#32

def val_main_v6 : Vec F S100000x1 .i32 :=
  broadcastInDim S100000x1 ![] bcast_S_S100000x1 (val_main_c_1 (F := F))

def val_main_v7 (x0 : Vec F S100000 .i32) : Vec F S100000x2 .i32 :=
  concatenate S100000x2 1 [⟨S100000x1, (val_main_v5 x0)⟩, ⟨S100000x1, (val_main_v6 (F := F))⟩] concatenates_S100000x1_S100000x1_S100000x2_d1

def val_main_v8 (x0 : Vec F S100000 .i32) (x6 : Vec F S100000x384 .f32) : Vec F S100000x128 .f32 :=
  Host.gather gather_S100000x384_S100000x2_S100000x128_1_0_n_n_01_1_1128 x6 (val_main_v7 x0)

def val_main_c_2 : Vec F S_ .i32 :=
  constantI S_ 32 0#32

def val_main_v9 : Vec F S100000 .i32 :=
  broadcastInDim S100000 ![] bcast_S_S100000 (val_main_c_2 (F := F))

def val_main_v10 (x0 : Vec F S100000 .i32) : Vec F S100000 .i1 :=
  cmpi .slt x0 (val_main_v9 (F := F))

def val_main_c_3 : Vec F S_ .i32 :=
  constantI S_ 32 100000#32

def val_main_v11 : Vec F S100000 .i32 :=
  broadcastInDim S100000 ![] bcast_S_S100000 (val_main_c_3 (F := F))

def val_main_v12 (x0 : Vec F S100000 .i32) : Vec F S100000 .i32 :=
  addi x0 (val_main_v11 (F := F))

def val_main_v13 (x0 : Vec F S100000 .i32) : Vec F S100000 .i32 :=
  select (val_main_v10 x0) (val_main_v12 x0) x0

def val_main_v14 (x0 : Vec F S100000 .i32) : Vec F S100000x1 .i32 :=
  broadcastInDim S100000x1 ![0] bcast_S100000_S100000x1_0 (val_main_v13 x0)

def val_main_c_4 : Vec F S_ .i32 :=
  constantI S_ 32 128#32

def val_main_v15 : Vec F S100000x1 .i32 :=
  broadcastInDim S100000x1 ![] bcast_S_S100000x1 (val_main_c_4 (F := F))

def val_main_v16 (x0 : Vec F S100000 .i32) : Vec F S100000x2 .i32 :=
  concatenate S100000x2 1 [⟨S100000x1, (val_main_v14 x0)⟩, ⟨S100000x1, (val_main_v15 (F := F))⟩] concatenates_S100000x1_S100000x1_S100000x2_d1

def val_main_v17 (x0 : Vec F S100000 .i32) (x6 : Vec F S100000x384 .f32) : Vec F S100000x256 .f32 :=
  Host.gather gather_S100000x384_S100000x2_S100000x256_1_0_n_n_01_1_1256 x6 (val_main_v16 x0)

def val_main_c_5 : Vec F S_ .i32 :=
  constantI S_ 32 0#32

def val_main_v18 : Vec F S50000 .i32 :=
  broadcastInDim S50000 ![] bcast_S_S50000 (val_main_c_5 (F := F))

def val_main_v19 (x1 : Vec F S50000 .i32) : Vec F S50000 .i1 :=
  cmpi .slt x1 (val_main_v18 (F := F))

def val_main_c_6 : Vec F S_ .i32 :=
  constantI S_ 32 100000#32

def val_main_v20 : Vec F S50000 .i32 :=
  broadcastInDim S50000 ![] bcast_S_S50000 (val_main_c_6 (F := F))

def val_main_v21 (x1 : Vec F S50000 .i32) : Vec F S50000 .i32 :=
  addi x1 (val_main_v20 (F := F))

def val_main_v22 (x1 : Vec F S50000 .i32) : Vec F S50000 .i32 :=
  select (val_main_v19 x1) (val_main_v21 x1) x1

def val_main_v23 (x1 : Vec F S50000 .i32) : Vec F S50000x1 .i32 :=
  broadcastInDim S50000x1 ![0] bcast_S50000_S50000x1_0 (val_main_v22 x1)

def val_main_v24 (x1 : Vec F S50000 .i32) (x7 : Vec F S100000 .i32) : Vec F S50000 .i32 :=
  Host.gather gather_S100000_S50000x1_S50000_n_0_n_n_0_1_1 x7 (val_main_v23 x1)

def val_main_v25 (x1 x4 : Vec F S50000 .i32) (x7 : Vec F S100000 .i32) : Vec F S50000 .i32 :=
  subi x4 (val_main_v24 x1 x7)

def val_main_v26 (x1 x4 : Vec F S50000 .i32) (x7 : Vec F S100000 .i32) : Vec F S50000 .f32 :=
  sitofp .f32 (val_main_v25 x1 x4 x7)

def val_main_v27 (x1 x4 : Vec F S50000 .i32) (x7 : Vec F S100000 .i32) : Vec F S50000x1 .f32 :=
  broadcastInDim S50000x1 ![0] bcast_S50000_S50000x1_0 (val_main_v26 x1 x4 x7)

abbrev idx_main_v27 (i : S50000x1.Idx) : S50000.Idx := fun a => match a with
  | ⟨0, _⟩ => ⟨(i 0).val, (i 0).isLt⟩

theorem val_main_v27_apply (x1 x4 : Vec F S50000 .i32) (x7 : Vec F S100000 .i32) (i : S50000x1.Idx) :
    val_main_v27 x1 x4 x7 i = val_main_v26 x1 x4 x7 (idx_main_v27 i) := by
  unfold val_main_v27
  generalize val_main_v26 x1 x4 x7 = y
  exact broadcastInDim_apply _ bcast_S50000_S50000x1_0 y i (idx_main_v27 i) (fun a => match a with
    | ⟨0, _⟩ => by show (i 0).val = if (50000 : Nat) = 1 then 0 else (i 0).val; rw [if_neg (by decide)])

def val_main_v28 (x1 x4 : Vec F S50000 .i32) (x7 : Vec F S100000 .i32) (x8 : Vec F S1x64 .f32) : Vec F S50000x64 .f32 :=
  Host.dotGeneral dot_S50000x1_S1x64_S50000x64_1_0_0_1_n_n none (val_main_v27 x1 x4 x7) x8

theorem lhs_main_v28_0 (i : S50000x64.Idx) (q : dot_S50000x1_S1x64_S50000x64_1_0_0_1_n_n.contr.Idx) :
    (dot_S50000x1_S1x64_S50000x64_1_0_0_1_n_n.lhsIdx i q 0).val = (i 0).val := by
  unfold DotDims.lhsIdx
  rw [dif_neg (show ¬(0 : Fin S50000x1.rank) ∈ dot_S50000x1_S1x64_S50000x64_1_0_0_1_n_n.lhsBatch by decide), dif_pos (show (0 : Fin S50000x1.rank) ∈ dot_S50000x1_S1x64_S50000x64_1_0_0_1_n_n.lhsNonContracting by decide)]
  rfl

theorem lhs_main_v28_1 (i : S50000x64.Idx) (q : dot_S50000x1_S1x64_S50000x64_1_0_0_1_n_n.contr.Idx) :
    (dot_S50000x1_S1x64_S50000x64_1_0_0_1_n_n.lhsIdx i q 1).val = (q ⟨0, by decide⟩).val :=
  dot_S50000x1_S1x64_S50000x64_1_0_0_1_n_n.lhsIdx_val_of_single rfl i q

theorem rhs_main_v28_0 (i : S50000x64.Idx) (q : dot_S50000x1_S1x64_S50000x64_1_0_0_1_n_n.contr.Idx) :
    (dot_S50000x1_S1x64_S50000x64_1_0_0_1_n_n.rhsIdx i q 0).val = (q ⟨0, by decide⟩).val :=
  dot_S50000x1_S1x64_S50000x64_1_0_0_1_n_n.rhsIdx_val_of_single rfl i q

theorem rhs_main_v28_1 (i : S50000x64.Idx) (q : dot_S50000x1_S1x64_S50000x64_1_0_0_1_n_n.contr.Idx) :
    (dot_S50000x1_S1x64_S50000x64_1_0_0_1_n_n.rhsIdx i q 1).val = (i 1).val := by
  unfold DotDims.rhsIdx
  rw [dif_neg (show ¬(1 : Fin S1x64.rank) ∈ dot_S50000x1_S1x64_S50000x64_1_0_0_1_n_n.rhsBatch by decide), dif_pos (show (1 : Fin S1x64.rank) ∈ dot_S50000x1_S1x64_S50000x64_1_0_0_1_n_n.rhsNonContracting by decide)]
  rfl

abbrev lidx_main_v28 (i : S50000x64.Idx) (k : Fin 1) : S50000x1.Idx := fun a => match a with
  | ⟨0, _⟩ => ⟨(i 0).val, (i 0).isLt⟩
  | ⟨1, _⟩ => ⟨k.val, k.isLt⟩

abbrev ridx_main_v28 (i : S50000x64.Idx) (k : Fin 1) : S1x64.Idx := fun a => match a with
  | ⟨0, _⟩ => ⟨k.val, k.isLt⟩
  | ⟨1, _⟩ => ⟨(i 1).val, (i 1).isLt⟩

theorem val_main_v28_apply (x1 x4 : (⟨S50000, .i32⟩ : BufTy).Contents (Elt Ideal)) (x7 : (⟨S100000, .i32⟩ : BufTy).Contents (Elt Ideal)) (x8 : (⟨S1x64, .f32⟩ : BufTy).Contents (Elt Ideal)) (i : S50000x64.Idx) :
    val_main_v28 (F := Ideal) x1 x4 x7 x8 i = ∑ k : Fin 1, (val_main_v27 (F := Ideal) x1 x4 x7) (lidx_main_v28 i k) * x8 (ridx_main_v28 i k) := by
  unfold val_main_v28
  generalize val_main_v27 (F := Ideal) x1 x4 x7 = y0
  simp only [Host.dotGeneral]
  rw [Ideal.dotGeneral_apply, ← Equiv.sum_comp (ValueIdx.contrEquiv1 dot_S50000x1_S1x64_S50000x64_1_0_0_1_n_n 1 rfl rfl).symm]
  refine Finset.sum_congr rfl fun k _ => ?_
  have hk := ValueIdx.contrEquiv1_symm_val dot_S50000x1_S1x64_S50000x64_1_0_0_1_n_n 1 rfl rfl k
  have el : dot_S50000x1_S1x64_S50000x64_1_0_0_1_n_n.lhsIdx i ((ValueIdx.contrEquiv1 dot_S50000x1_S1x64_S50000x64_1_0_0_1_n_n 1 rfl rfl).symm k) = lidx_main_v28 i k := funext fun a => Fin.ext (by
    match a with
    | ⟨0, _⟩ => exact lhs_main_v28_0 _ _
    | ⟨1, _⟩ => exact (lhs_main_v28_1 _ _).trans hk)
  have er : dot_S50000x1_S1x64_S50000x64_1_0_0_1_n_n.rhsIdx i ((ValueIdx.contrEquiv1 dot_S50000x1_S1x64_S50000x64_1_0_0_1_n_n 1 rfl rfl).symm k) = ridx_main_v28 i k := funext fun a => Fin.ext (by
    match a with
    | ⟨0, _⟩ => exact (rhs_main_v28_0 _ _).trans hk
    | ⟨1, _⟩ => exact rhs_main_v28_1 _ _)
  rw [el, er]

def val_main_v29 (x9 : Vec F S64 .f32) : Vec F S1x64 .f32 :=
  broadcastInDim S1x64 ![1] bcast_S64_S1x64_1 x9

abbrev idx_main_v29 (i : S1x64.Idx) : S64.Idx := fun a => match a with
  | ⟨0, _⟩ => ⟨(i 1).val, (i 1).isLt⟩

theorem val_main_v29_apply (x9 : Vec F S64 .f32) (i : S1x64.Idx) :
    val_main_v29 x9 i = x9 (idx_main_v29 i) := by
  unfold val_main_v29
  exact broadcastInDim_apply _ bcast_S64_S1x64_1 x9 i (idx_main_v29 i) (fun a => match a with
    | ⟨0, _⟩ => by show (i 1).val = if (64 : Nat) = 1 then 0 else (i 1).val; rw [if_neg (by decide)])

def val_main_v30 (x9 : Vec F S64 .f32) : Vec F S50000x64 .f32 :=
  broadcastInDim S50000x64 ![0, 1] bcast_S1x64_S50000x64_0_1 (val_main_v29 x9)

abbrev idx_main_v30 (i : S50000x64.Idx) : S1x64.Idx := fun a => match a with
  | ⟨0, _⟩ => ⟨0, Nat.one_pos⟩
  | ⟨1, _⟩ => ⟨(i 1).val, (i 1).isLt⟩

theorem val_main_v30_apply (x9 : Vec F S64 .f32) (i : S50000x64.Idx) :
    val_main_v30 x9 i = val_main_v29 x9 (idx_main_v30 i) := by
  unfold val_main_v30
  generalize val_main_v29 x9 = y
  exact broadcastInDim_apply _ bcast_S1x64_S50000x64_0_1 y i (idx_main_v30 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v31 (x1 x4 : Vec F S50000 .i32) (x7 : Vec F S100000 .i32) (x8 : Vec F S1x64 .f32) (x9 : Vec F S64 .f32) : Vec F S50000x64 .f32 :=
  addf (val_main_v28 x1 x4 x7 x8) (val_main_v30 x9)

theorem val_main_v31_apply (x1 x4 : Vec F S50000 .i32) (x7 : Vec F S100000 .i32) (x8 : Vec F S1x64 .f32) (x9 : Vec F S64 .f32) (i : S50000x64.Idx) :
    val_main_v31 x1 x4 x7 x8 x9 i = FloatOps.addf (val_main_v28 x1 x4 x7 x8 i) (val_main_v30 x9 i) := rfl

def val_main_v32 (x1 x4 : Vec F S50000 .i32) (x7 : Vec F S100000 .i32) (x8 : Vec F S1x64 .f32) (x9 : Vec F S64 .f32) : Vec F S50000x64 .f32 :=
  Host.cos (val_main_v31 x1 x4 x7 x8 x9)

theorem val_main_v32_apply (x1 x4 : Vec F S50000 .i32) (x7 : Vec F S100000 .i32) (x8 : Vec F S1x64 .f32) (x9 : Vec F S64 .f32) (i : S50000x64.Idx) :
    val_main_v32 x1 x4 x7 x8 x9 i = FloatOps.hostUnary .cos (val_main_v31 x1 x4 x7 x8 x9 i) := rfl

def val_main_c_7 : Vec F S_ .i32 :=
  constantI S_ 32 0#32

def val_main_v33 : Vec F S50000 .i32 :=
  broadcastInDim S50000 ![] bcast_S_S50000 (val_main_c_7 (F := F))

def val_main_v34 (x1 : Vec F S50000 .i32) : Vec F S50000 .i1 :=
  cmpi .slt x1 (val_main_v33 (F := F))

def val_main_c_8 : Vec F S_ .i32 :=
  constantI S_ 32 100000#32

def val_main_v35 : Vec F S50000 .i32 :=
  broadcastInDim S50000 ![] bcast_S_S50000 (val_main_c_8 (F := F))

def val_main_v36 (x1 : Vec F S50000 .i32) : Vec F S50000 .i32 :=
  addi x1 (val_main_v35 (F := F))

def val_main_v37 (x1 : Vec F S50000 .i32) : Vec F S50000 .i32 :=
  select (val_main_v34 x1) (val_main_v36 x1) x1

def val_main_v38 (x1 : Vec F S50000 .i32) : Vec F S50000x1 .i32 :=
  broadcastInDim S50000x1 ![0] bcast_S50000_S50000x1_0 (val_main_v37 x1)

def val_main_v39 (x1 : Vec F S50000 .i32) (x6 : Vec F S100000x384 .f32) : Vec F S50000x384 .f32 :=
  Host.gather gather_S100000x384_S50000x1_S50000x384_1_0_n_n_0_1_1384 x6 (val_main_v38 x1)

def val_main_c_9 : Vec F S_ .i32 :=
  constantI S_ 32 0#32

def val_main_v40 : Vec F S50000 .i32 :=
  broadcastInDim S50000 ![] bcast_S_S50000 (val_main_c_9 (F := F))

def val_main_v41 (x2 : Vec F S50000 .i32) : Vec F S50000 .i1 :=
  cmpi .slt x2 (val_main_v40 (F := F))

def val_main_c_10 : Vec F S_ .i32 :=
  constantI S_ 32 100000#32

def val_main_v42 : Vec F S50000 .i32 :=
  broadcastInDim S50000 ![] bcast_S_S50000 (val_main_c_10 (F := F))

def val_main_v43 (x2 : Vec F S50000 .i32) : Vec F S50000 .i32 :=
  addi x2 (val_main_v42 (F := F))

def val_main_v44 (x2 : Vec F S50000 .i32) : Vec F S50000 .i32 :=
  select (val_main_v41 x2) (val_main_v43 x2) x2

def val_main_v45 (x2 : Vec F S50000 .i32) : Vec F S50000x1 .i32 :=
  broadcastInDim S50000x1 ![0] bcast_S50000_S50000x1_0 (val_main_v44 x2)

def val_main_v46 (x2 : Vec F S50000 .i32) (x6 : Vec F S100000x384 .f32) : Vec F S50000x384 .f32 :=
  Host.gather gather_S100000x384_S50000x1_S50000x384_1_0_n_n_0_1_1384 x6 (val_main_v45 x2)

def val_main_c_11 : Vec F S_ .i32 :=
  constantI S_ 32 0#32

def val_main_v47 : Vec F S50000 .i32 :=
  broadcastInDim S50000 ![] bcast_S_S50000 (val_main_c_11 (F := F))

def val_main_v48 (x3 : Vec F S50000 .i32) : Vec F S50000 .i1 :=
  cmpi .slt x3 (val_main_v47 (F := F))

def val_main_c_12 : Vec F S_ .i32 :=
  constantI S_ 32 100000#32

def val_main_v49 : Vec F S50000 .i32 :=
  broadcastInDim S50000 ![] bcast_S_S50000 (val_main_c_12 (F := F))

def val_main_v50 (x3 : Vec F S50000 .i32) : Vec F S50000 .i32 :=
  addi x3 (val_main_v49 (F := F))

def val_main_v51 (x3 : Vec F S50000 .i32) : Vec F S50000 .i32 :=
  select (val_main_v48 x3) (val_main_v50 x3) x3

def val_main_v52 (x3 : Vec F S50000 .i32) : Vec F S50000x1 .i32 :=
  broadcastInDim S50000x1 ![0] bcast_S50000_S50000x1_0 (val_main_v51 x3)

def val_main_v53 (x3 : Vec F S50000 .i32) (x6 : Vec F S100000x384 .f32) : Vec F S50000x384 .f32 :=
  Host.gather gather_S100000x384_S50000x1_S50000x384_1_0_n_n_0_1_1384 x6 (val_main_v52 x3)

def val_main_v54 (x1 x2 x3 x4 : Vec F S50000 .i32) (x5 : Vec F S50000x64 .f32) (x6 : Vec F S100000x384 .f32) (x7 : Vec F S100000 .i32) (x8 : Vec F S1x64 .f32) (x9 : Vec F S64 .f32) : Vec F S50000x1280 .f32 :=
  concatenate S50000x1280 1 [⟨S50000x384, (val_main_v39 x1 x6)⟩, ⟨S50000x384, (val_main_v46 x2 x6)⟩, ⟨S50000x384, (val_main_v53 x3 x6)⟩, ⟨S50000x64, x5⟩, ⟨S50000x64, (val_main_v32 x1 x4 x7 x8 x9)⟩] concatenates_S50000x384_S50000x384_S50000x384_S50000x64_S50000x64_S50000x1280_d1

def val_main_c_13 : Vec F S_ .i32 :=
  constantI S_ 32 0#32

def val_main_v55 : Vec F S100000 .i32 :=
  broadcastInDim S100000 ![] bcast_S_S100000 (val_main_c_13 (F := F))

def val_main_v56 : Vec F S100000 .i32 :=
  iotaInDim S100000 32 0

def val_main_c_14 : Vec F S_ .i32 :=
  constantI S_ 32 0#32

def val_main_v57 : Vec F S100000 .i32 :=
  broadcastInDim S100000 ![] bcast_S_S100000 (val_main_c_14 (F := F))

def val_main_v58 (x0 : Vec F S100000 .i32) : Vec F S100000 .i1 :=
  cmpi .slt x0 (val_main_v57 (F := F))

def val_main_c_15 : Vec F S_ .i32 :=
  constantI S_ 32 100000#32

def val_main_v59 : Vec F S100000 .i32 :=
  broadcastInDim S100000 ![] bcast_S_S100000 (val_main_c_15 (F := F))

def val_main_v60 (x0 : Vec F S100000 .i32) : Vec F S100000 .i32 :=
  addi x0 (val_main_v59 (F := F))

def val_main_v61 (x0 : Vec F S100000 .i32) : Vec F S100000 .i32 :=
  select (val_main_v58 x0) (val_main_v60 x0) x0

def val_main_v62 (x0 : Vec F S100000 .i32) : Vec F S100000x1 .i32 :=
  broadcastInDim S100000x1 ![0] bcast_S100000_S100000x1_0 (val_main_v61 x0)

def val_main_v63 (x0 : Vec F S100000 .i32) : Vec F S100000 .i32 :=
  Host.scatter scatter_S100000_S100000x1_S100000_n_0_0_1 (fun _ b => b) (val_main_v55 (F := F)) (val_main_v62 x0) (val_main_v56 (F := F))

def val_main_v64 (x1 x2 x3 : Vec F S50000 .i32) : Vec F S150000 .i32 :=
  concatenate S150000 0 [⟨S50000, x1⟩, ⟨S50000, x2⟩, ⟨S50000, x3⟩] concatenates_S50000_S50000_S50000_S150000_d0

def val_main_c_16 : Vec F S_ .i32 :=
  constantI S_ 32 0#32

def val_main_v65 : Vec F S150000 .i32 :=
  broadcastInDim S150000 ![] bcast_S_S150000 (val_main_c_16 (F := F))

def val_main_v66 (x1 x2 x3 : Vec F S50000 .i32) : Vec F S150000 .i1 :=
  cmpi .slt (val_main_v64 x1 x2 x3) (val_main_v65 (F := F))

def val_main_c_17 : Vec F S_ .i32 :=
  constantI S_ 32 100000#32

def val_main_v67 : Vec F S150000 .i32 :=
  broadcastInDim S150000 ![] bcast_S_S150000 (val_main_c_17 (F := F))

def val_main_v68 (x1 x2 x3 : Vec F S50000 .i32) : Vec F S150000 .i32 :=
  addi (val_main_v64 x1 x2 x3) (val_main_v67 (F := F))

def val_main_v69 (x1 x2 x3 : Vec F S50000 .i32) : Vec F S150000 .i32 :=
  select (val_main_v66 x1 x2 x3) (val_main_v68 x1 x2 x3) (val_main_v64 x1 x2 x3)

def val_main_v70 (x1 x2 x3 : Vec F S50000 .i32) : Vec F S150000x1 .i32 :=
  broadcastInDim S150000x1 ![0] bcast_S150000_S150000x1_0 (val_main_v69 x1 x2 x3)

def val_main_v71 (x0 : Vec F S100000 .i32) (x1 x2 x3 : Vec F S50000 .i32) : Vec F S150000 .i32 :=
  Host.gather gather_S100000_S150000x1_S150000_n_0_n_n_0_1_1 (val_main_v63 x0) (val_main_v70 x1 x2 x3)

def val_main_v72 (x1 x2 x3 x4 : Vec F S50000 .i32) (x5 : Vec F S50000x64 .f32) (x6 : Vec F S100000x384 .f32) (x7 : Vec F S100000 .i32) (x8 : Vec F S1x64 .f32) (x9 : Vec F S64 .f32) : Vec F S150000x1280 .f32 :=
  concatenate S150000x1280 0 [⟨S50000x1280, (val_main_v54 x1 x2 x3 x4 x5 x6 x7 x8 x9)⟩, ⟨S50000x1280, (val_main_v54 x1 x2 x3 x4 x5 x6 x7 x8 x9)⟩, ⟨S50000x1280, (val_main_v54 x1 x2 x3 x4 x5 x6 x7 x8 x9)⟩] concatenates_S50000x1280_S50000x1280_S50000x1280_S150000x1280_d0

def val_main_v73 (x4 : Vec F S50000 .i32) : Vec F S150000 .i32 :=
  concatenate S150000 0 [⟨S50000, x4⟩, ⟨S50000, x4⟩, ⟨S50000, x4⟩] concatenates_S50000_S50000_S50000_S150000_d0

def val_main_cst : Vec F S_ .f32 :=
  constant S_ .f32 0x00000000#32

def val_main_v74 : Vec F S100000x1280 .f32 :=
  broadcastInDim S100000x1280 ![] bcast_S_S100000x1280 (val_main_cst (F := F))

def val_main_v75 (x0 : Vec F S100000 .i32) (x1 x2 x3 : Vec F S50000 .i32) : Vec F S150000x1 .i32 :=
  broadcastInDim S150000x1 ![0] bcast_S150000_S150000x1_0 (val_main_v71 x0 x1 x2 x3)

def val_main_v76 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) : Vec F S100000x1280 .f32 :=
  Host.scatterAdd scatter_S100000x1280_S150000x1_S150000x1280_1_0_0_1 (val_main_v74 (F := F)) (val_main_v75 x0 x1 x2 x3) (val_main_v72 x1 x2 x3 x4 x5 x6 x7 x8 x9)

def val_main_cst_18 : Vec F S_ .f32 :=
  constant S_ .f32 0x3F800000#32

def val_main_v77 : Vec F S150000 .f32 :=
  broadcastInDim S150000 ![] bcast_S_S150000 (val_main_cst_18 (F := F))

def val_main_cst_19 : Vec F S_ .f32 :=
  constant S_ .f32 0x00000000#32

def val_main_v78 : Vec F S100000 .f32 :=
  broadcastInDim S100000 ![] bcast_S_S100000 (val_main_cst_19 (F := F))

def val_main_v79 (x0 : Vec F S100000 .i32) (x1 x2 x3 : Vec F S50000 .i32) : Vec F S150000x1 .i32 :=
  broadcastInDim S150000x1 ![0] bcast_S150000_S150000x1_0 (val_main_v71 x0 x1 x2 x3)

def val_main_v80 (x0 : Vec F S100000 .i32) (x1 x2 x3 : Vec F S50000 .i32) : Vec F S100000 .f32 :=
  Host.scatterAdd scatter_S100000_S150000x1_S150000_n_0_0_1 (val_main_v78 (F := F)) (val_main_v79 x0 x1 x2 x3) (val_main_v77 (F := F))

def val_main_cst_20 : Vec F S_ .f32 :=
  constant S_ .f32 0x3F800000#32

theorem val_main_cst_20_apply (i : S_.Idx) :
    val_main_cst_20 (F := F) i = FloatOps.ofBits .f32 0x3F800000#32 := rfl

def val_main_v81 : Vec F S100000 .f32 :=
  broadcastInDim S100000 ![] bcast_S_S100000 (val_main_cst_20 (F := F))

abbrev idx_main_v81 (i : S100000.Idx) : S_.Idx := fun a => a.elim0

theorem val_main_v81_apply (i : S100000.Idx) :
    val_main_v81 (F := F) i = val_main_cst_20 (F := F) (idx_main_v81 i) := by
  unfold val_main_v81
  generalize val_main_cst_20 (F := F) = y
  exact broadcastInDim_apply _ bcast_S_S100000 y i (idx_main_v81 i) (fun a => a.elim0)

def val_main_v82 (x0 : Vec F S100000 .i32) (x1 x2 x3 : Vec F S50000 .i32) : Vec F S100000 .f32 :=
  maximumf (val_main_v80 x0 x1 x2 x3) (val_main_v81 (F := F))

theorem val_main_v82_apply (x0 : Vec F S100000 .i32) (x1 x2 x3 : Vec F S50000 .i32) (i : S100000.Idx) :
    val_main_v82 x0 x1 x2 x3 i = FloatOps.maximumf (val_main_v80 x0 x1 x2 x3 i) (val_main_v81 (F := F) i) := rfl

def val_main_v83 (x0 : Vec F S100000 .i32) (x1 x2 x3 : Vec F S50000 .i32) : Vec F S100000x1 .f32 :=
  broadcastInDim S100000x1 ![0] bcast_S100000_S100000x1_0 (val_main_v82 x0 x1 x2 x3)

abbrev idx_main_v83 (i : S100000x1.Idx) : S100000.Idx := fun a => match a with
  | ⟨0, _⟩ => ⟨(i 0).val, (i 0).isLt⟩

theorem val_main_v83_apply (x0 : Vec F S100000 .i32) (x1 x2 x3 : Vec F S50000 .i32) (i : S100000x1.Idx) :
    val_main_v83 x0 x1 x2 x3 i = val_main_v82 x0 x1 x2 x3 (idx_main_v83 i) := by
  unfold val_main_v83
  generalize val_main_v82 x0 x1 x2 x3 = y
  exact broadcastInDim_apply _ bcast_S100000_S100000x1_0 y i (idx_main_v83 i) (fun a => match a with
    | ⟨0, _⟩ => by show (i 0).val = if (100000 : Nat) = 1 then 0 else (i 0).val; rw [if_neg (by decide)])

def val_main_v84 (x0 : Vec F S100000 .i32) (x1 x2 x3 : Vec F S50000 .i32) : Vec F S100000x1280 .f32 :=
  broadcastInDim S100000x1280 ![0, 1] bcast_S100000x1_S100000x1280_0_1 (val_main_v83 x0 x1 x2 x3)

abbrev idx_main_v84 (i : S100000x1280.Idx) : S100000x1.Idx := fun a => match a with
  | ⟨0, _⟩ => ⟨(i 0).val, (i 0).isLt⟩
  | ⟨1, _⟩ => ⟨0, Nat.one_pos⟩

theorem val_main_v84_apply (x0 : Vec F S100000 .i32) (x1 x2 x3 : Vec F S50000 .i32) (i : S100000x1280.Idx) :
    val_main_v84 x0 x1 x2 x3 i = val_main_v83 x0 x1 x2 x3 (idx_main_v84 i) := by
  unfold val_main_v84
  generalize val_main_v83 x0 x1 x2 x3 = y
  exact broadcastInDim_apply _ bcast_S100000x1_S100000x1280_0_1 y i (idx_main_v84 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v85 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) : Vec F S100000x1280 .f32 :=
  Host.divf (val_main_v76 x0 x1 x2 x3 x4 x5 x6 x7 x8 x9) (val_main_v84 x0 x1 x2 x3)

theorem val_main_v85_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (i : S100000x1280.Idx) :
    val_main_v85 x0 x1 x2 x3 x4 x5 x6 x7 x8 x9 i = FloatOps.hostDivf (val_main_v76 x0 x1 x2 x3 x4 x5 x6 x7 x8 x9 i) (val_main_v84 x0 x1 x2 x3 i) := rfl

def val_main_v86 (x10 : Vec F S384x1280 .f32) : Vec F S1280x384 .f32 :=
  transpose S1280x384 [1, 0] x10 transposes_S384x1280_S1280x384_1_0

abbrev idx_main_v86 (i : S1280x384.Idx) : S384x1280.Idx := fun a => match a with
  | ⟨0, _⟩ => ⟨(i 1).val, (i 1).isLt⟩
  | ⟨1, _⟩ => ⟨(i 0).val, (i 0).isLt⟩

theorem val_main_v86_apply (x10 : Vec F S384x1280 .f32) (i : S1280x384.Idx) :
    val_main_v86 x10 i = x10 (idx_main_v86 i) := by
  unfold val_main_v86
  exact transpose_apply [1, 0] x10 transposes_S384x1280_S1280x384_1_0 i (idx_main_v86 i) (fun b => match b with
    | ⟨0, _⟩ => rfl
    | ⟨1, _⟩ => rfl)

def val_main_v87 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) : Vec F S100000x384 .f32 :=
  Host.dotGeneral dot_S100000x1280_S1280x384_S100000x384_1_0_0_1_n_n none (val_main_v85 x0 x1 x2 x3 x4 x5 x6 x7 x8 x9) (val_main_v86 x10)

theorem lhs_main_v87_0 (i : S100000x384.Idx) (q : dot_S100000x1280_S1280x384_S100000x384_1_0_0_1_n_n.contr.Idx) :
    (dot_S100000x1280_S1280x384_S100000x384_1_0_0_1_n_n.lhsIdx i q 0).val = (i 0).val := by
  unfold DotDims.lhsIdx
  rw [dif_neg (show ¬(0 : Fin S100000x1280.rank) ∈ dot_S100000x1280_S1280x384_S100000x384_1_0_0_1_n_n.lhsBatch by decide), dif_pos (show (0 : Fin S100000x1280.rank) ∈ dot_S100000x1280_S1280x384_S100000x384_1_0_0_1_n_n.lhsNonContracting by decide)]
  rfl

theorem lhs_main_v87_1 (i : S100000x384.Idx) (q : dot_S100000x1280_S1280x384_S100000x384_1_0_0_1_n_n.contr.Idx) :
    (dot_S100000x1280_S1280x384_S100000x384_1_0_0_1_n_n.lhsIdx i q 1).val = (q ⟨0, by decide⟩).val :=
  dot_S100000x1280_S1280x384_S100000x384_1_0_0_1_n_n.lhsIdx_val_of_single rfl i q

theorem rhs_main_v87_0 (i : S100000x384.Idx) (q : dot_S100000x1280_S1280x384_S100000x384_1_0_0_1_n_n.contr.Idx) :
    (dot_S100000x1280_S1280x384_S100000x384_1_0_0_1_n_n.rhsIdx i q 0).val = (q ⟨0, by decide⟩).val :=
  dot_S100000x1280_S1280x384_S100000x384_1_0_0_1_n_n.rhsIdx_val_of_single rfl i q

theorem rhs_main_v87_1 (i : S100000x384.Idx) (q : dot_S100000x1280_S1280x384_S100000x384_1_0_0_1_n_n.contr.Idx) :
    (dot_S100000x1280_S1280x384_S100000x384_1_0_0_1_n_n.rhsIdx i q 1).val = (i 1).val := by
  unfold DotDims.rhsIdx
  rw [dif_neg (show ¬(1 : Fin S1280x384.rank) ∈ dot_S100000x1280_S1280x384_S100000x384_1_0_0_1_n_n.rhsBatch by decide), dif_pos (show (1 : Fin S1280x384.rank) ∈ dot_S100000x1280_S1280x384_S100000x384_1_0_0_1_n_n.rhsNonContracting by decide)]
  rfl

abbrev lidx_main_v87 (i : S100000x384.Idx) (k : Fin 1280) : S100000x1280.Idx := fun a => match a with
  | ⟨0, _⟩ => ⟨(i 0).val, (i 0).isLt⟩
  | ⟨1, _⟩ => ⟨k.val, k.isLt⟩

abbrev ridx_main_v87 (i : S100000x384.Idx) (k : Fin 1280) : S1280x384.Idx := fun a => match a with
  | ⟨0, _⟩ => ⟨k.val, k.isLt⟩
  | ⟨1, _⟩ => ⟨(i 1).val, (i 1).isLt⟩

theorem val_main_v87_apply (x0 : (⟨S100000, .i32⟩ : BufTy).Contents (Elt Ideal)) (x1 x2 x3 x4 : (⟨S50000, .i32⟩ : BufTy).Contents (Elt Ideal)) (x5 : (⟨S50000x64, .f32⟩ : BufTy).Contents (Elt Ideal)) (x6 : (⟨S100000x384, .f32⟩ : BufTy).Contents (Elt Ideal)) (x7 : (⟨S100000, .i32⟩ : BufTy).Contents (Elt Ideal)) (x8 : (⟨S1x64, .f32⟩ : BufTy).Contents (Elt Ideal)) (x9 : (⟨S64, .f32⟩ : BufTy).Contents (Elt Ideal)) (x10 : (⟨S384x1280, .f32⟩ : BufTy).Contents (Elt Ideal)) (i : S100000x384.Idx) :
    val_main_v87 (F := Ideal) x0 x1 x2 x3 x4 x5 x6 x7 x8 x9 x10 i = ∑ k : Fin 1280, (val_main_v85 (F := Ideal) x0 x1 x2 x3 x4 x5 x6 x7 x8 x9) (lidx_main_v87 i k) * (val_main_v86 (F := Ideal) x10) (ridx_main_v87 i k) := by
  unfold val_main_v87
  generalize val_main_v85 (F := Ideal) x0 x1 x2 x3 x4 x5 x6 x7 x8 x9 = y0
  generalize val_main_v86 (F := Ideal) x10 = y1
  simp only [Host.dotGeneral]
  rw [Ideal.dotGeneral_apply, ← Equiv.sum_comp (ValueIdx.contrEquiv1 dot_S100000x1280_S1280x384_S100000x384_1_0_0_1_n_n 1280 rfl rfl).symm]
  refine Finset.sum_congr rfl fun k _ => ?_
  have hk := ValueIdx.contrEquiv1_symm_val dot_S100000x1280_S1280x384_S100000x384_1_0_0_1_n_n 1280 rfl rfl k
  have el : dot_S100000x1280_S1280x384_S100000x384_1_0_0_1_n_n.lhsIdx i ((ValueIdx.contrEquiv1 dot_S100000x1280_S1280x384_S100000x384_1_0_0_1_n_n 1280 rfl rfl).symm k) = lidx_main_v87 i k := funext fun a => Fin.ext (by
    match a with
    | ⟨0, _⟩ => exact lhs_main_v87_0 _ _
    | ⟨1, _⟩ => exact (lhs_main_v87_1 _ _).trans hk)
  have er : dot_S100000x1280_S1280x384_S100000x384_1_0_0_1_n_n.rhsIdx i ((ValueIdx.contrEquiv1 dot_S100000x1280_S1280x384_S100000x384_1_0_0_1_n_n 1280 rfl rfl).symm k) = ridx_main_v87 i k := funext fun a => Fin.ext (by
    match a with
    | ⟨0, _⟩ => exact (rhs_main_v87_0 _ _).trans hk
    | ⟨1, _⟩ => exact rhs_main_v87_1 _ _)
  rw [el, er]

def val_main_v88 (x12 : Vec F S384 .f32) : Vec F S1x384 .f32 :=
  broadcastInDim S1x384 ![1] bcast_S384_S1x384_1 x12

abbrev idx_main_v88 (i : S1x384.Idx) : S384.Idx := fun a => match a with
  | ⟨0, _⟩ => ⟨(i 1).val, (i 1).isLt⟩

theorem val_main_v88_apply (x12 : Vec F S384 .f32) (i : S1x384.Idx) :
    val_main_v88 x12 i = x12 (idx_main_v88 i) := by
  unfold val_main_v88
  exact broadcastInDim_apply _ bcast_S384_S1x384_1 x12 i (idx_main_v88 i) (fun a => match a with
    | ⟨0, _⟩ => by show (i 1).val = if (384 : Nat) = 1 then 0 else (i 1).val; rw [if_neg (by decide)])

def val_main_v89 (x12 : Vec F S384 .f32) : Vec F S100000x384 .f32 :=
  broadcastInDim S100000x384 ![0, 1] bcast_S1x384_S100000x384_0_1 (val_main_v88 x12)

abbrev idx_main_v89 (i : S100000x384.Idx) : S1x384.Idx := fun a => match a with
  | ⟨0, _⟩ => ⟨0, Nat.one_pos⟩
  | ⟨1, _⟩ => ⟨(i 1).val, (i 1).isLt⟩

theorem val_main_v89_apply (x12 : Vec F S384 .f32) (i : S100000x384.Idx) :
    val_main_v89 x12 i = val_main_v88 x12 (idx_main_v89 i) := by
  unfold val_main_v89
  generalize val_main_v88 x12 = y
  exact broadcastInDim_apply _ bcast_S1x384_S100000x384_0_1 y i (idx_main_v89 i) (fun a => match a with
    | ⟨0, _⟩ => by show 0 = if (1 : Nat) = 1 then 0 else (i 0).val; rw [if_pos rfl]
    | ⟨1, _⟩ => by show (i 1).val = if (384 : Nat) = 1 then 0 else (i 1).val; rw [if_neg (by decide)])

def val_main_v90 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) : Vec F S100000x384 .f32 :=
  addf (val_main_v87 x0 x1 x2 x3 x4 x5 x6 x7 x8 x9 x10) (val_main_v89 x12)

theorem val_main_v90_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) (i : S100000x384.Idx) :
    val_main_v90 x0 x1 x2 x3 x4 x5 x6 x7 x8 x9 x10 x12 i = FloatOps.addf (val_main_v87 x0 x1 x2 x3 x4 x5 x6 x7 x8 x9 x10 i) (val_main_v89 x12 i) := rfl

def val_main_v91 (x11 : Vec F S384x128 .f32) : Vec F S128x384 .f32 :=
  transpose S128x384 [1, 0] x11 transposes_S384x128_S128x384_1_0

def val_main_v92 (x0 : Vec F S100000 .i32) (x6 : Vec F S100000x384 .f32) (x11 : Vec F S384x128 .f32) : Vec F S100000x384 .f32 :=
  Host.dotGeneral dot_S100000x128_S128x384_S100000x384_1_0_0_1_n_n none (val_main_v8 x0 x6) (val_main_v91 x11)

theorem lhs_main_v92_0 (i : S100000x384.Idx) (q : dot_S100000x128_S128x384_S100000x384_1_0_0_1_n_n.contr.Idx) :
    (dot_S100000x128_S128x384_S100000x384_1_0_0_1_n_n.lhsIdx i q 0).val = (i 0).val := by
  unfold DotDims.lhsIdx
  rw [dif_neg (show ¬(0 : Fin S100000x128.rank) ∈ dot_S100000x128_S128x384_S100000x384_1_0_0_1_n_n.lhsBatch by decide), dif_pos (show (0 : Fin S100000x128.rank) ∈ dot_S100000x128_S128x384_S100000x384_1_0_0_1_n_n.lhsNonContracting by decide)]
  rfl

theorem lhs_main_v92_1 (i : S100000x384.Idx) (q : dot_S100000x128_S128x384_S100000x384_1_0_0_1_n_n.contr.Idx) :
    (dot_S100000x128_S128x384_S100000x384_1_0_0_1_n_n.lhsIdx i q 1).val = (q ⟨0, by decide⟩).val :=
  dot_S100000x128_S128x384_S100000x384_1_0_0_1_n_n.lhsIdx_val_of_single rfl i q

theorem rhs_main_v92_0 (i : S100000x384.Idx) (q : dot_S100000x128_S128x384_S100000x384_1_0_0_1_n_n.contr.Idx) :
    (dot_S100000x128_S128x384_S100000x384_1_0_0_1_n_n.rhsIdx i q 0).val = (q ⟨0, by decide⟩).val :=
  dot_S100000x128_S128x384_S100000x384_1_0_0_1_n_n.rhsIdx_val_of_single rfl i q

theorem rhs_main_v92_1 (i : S100000x384.Idx) (q : dot_S100000x128_S128x384_S100000x384_1_0_0_1_n_n.contr.Idx) :
    (dot_S100000x128_S128x384_S100000x384_1_0_0_1_n_n.rhsIdx i q 1).val = (i 1).val := by
  unfold DotDims.rhsIdx
  rw [dif_neg (show ¬(1 : Fin S128x384.rank) ∈ dot_S100000x128_S128x384_S100000x384_1_0_0_1_n_n.rhsBatch by decide), dif_pos (show (1 : Fin S128x384.rank) ∈ dot_S100000x128_S128x384_S100000x384_1_0_0_1_n_n.rhsNonContracting by decide)]
  rfl

abbrev lidx_main_v92 (i : S100000x384.Idx) (k : Fin 128) : S100000x128.Idx := fun a => match a with
  | ⟨0, _⟩ => ⟨(i 0).val, (i 0).isLt⟩
  | ⟨1, _⟩ => ⟨k.val, k.isLt⟩

abbrev ridx_main_v92 (i : S100000x384.Idx) (k : Fin 128) : S128x384.Idx := fun a => match a with
  | ⟨0, _⟩ => ⟨k.val, k.isLt⟩
  | ⟨1, _⟩ => ⟨(i 1).val, (i 1).isLt⟩

theorem val_main_v92_apply (x0 : (⟨S100000, .i32⟩ : BufTy).Contents (Elt Ideal)) (x6 : (⟨S100000x384, .f32⟩ : BufTy).Contents (Elt Ideal)) (x11 : (⟨S384x128, .f32⟩ : BufTy).Contents (Elt Ideal)) (i : S100000x384.Idx) :
    val_main_v92 (F := Ideal) x0 x6 x11 i = ∑ k : Fin 128, (val_main_v8 (F := Ideal) x0 x6) (lidx_main_v92 i k) * (val_main_v91 (F := Ideal) x11) (ridx_main_v92 i k) := by
  unfold val_main_v92
  generalize val_main_v8 (F := Ideal) x0 x6 = y0
  generalize val_main_v91 (F := Ideal) x11 = y1
  simp only [Host.dotGeneral]
  rw [Ideal.dotGeneral_apply, ← Equiv.sum_comp (ValueIdx.contrEquiv1 dot_S100000x128_S128x384_S100000x384_1_0_0_1_n_n 128 rfl rfl).symm]
  refine Finset.sum_congr rfl fun k _ => ?_
  have hk := ValueIdx.contrEquiv1_symm_val dot_S100000x128_S128x384_S100000x384_1_0_0_1_n_n 128 rfl rfl k
  have el : dot_S100000x128_S128x384_S100000x384_1_0_0_1_n_n.lhsIdx i ((ValueIdx.contrEquiv1 dot_S100000x128_S128x384_S100000x384_1_0_0_1_n_n 128 rfl rfl).symm k) = lidx_main_v92 i k := funext fun a => Fin.ext (by
    match a with
    | ⟨0, _⟩ => exact lhs_main_v92_0 _ _
    | ⟨1, _⟩ => exact (lhs_main_v92_1 _ _).trans hk)
  have er : dot_S100000x128_S128x384_S100000x384_1_0_0_1_n_n.rhsIdx i ((ValueIdx.contrEquiv1 dot_S100000x128_S128x384_S100000x384_1_0_0_1_n_n 128 rfl rfl).symm k) = ridx_main_v92 i k := funext fun a => Fin.ext (by
    match a with
    | ⟨0, _⟩ => exact (rhs_main_v92_0 _ _).trans hk
    | ⟨1, _⟩ => exact rhs_main_v92_1 _ _)
  rw [el, er]

def val_main_v93 (x13 : Vec F S384 .f32) : Vec F S1x384 .f32 :=
  broadcastInDim S1x384 ![1] bcast_S384_S1x384_1 x13

abbrev idx_main_v93 (i : S1x384.Idx) : S384.Idx := fun a => match a with
  | ⟨0, _⟩ => ⟨(i 1).val, (i 1).isLt⟩

theorem val_main_v93_apply (x13 : Vec F S384 .f32) (i : S1x384.Idx) :
    val_main_v93 x13 i = x13 (idx_main_v93 i) := by
  unfold val_main_v93
  exact broadcastInDim_apply _ bcast_S384_S1x384_1 x13 i (idx_main_v93 i) (fun a => match a with
    | ⟨0, _⟩ => by show (i 1).val = if (384 : Nat) = 1 then 0 else (i 1).val; rw [if_neg (by decide)])

def val_main_v94 (x13 : Vec F S384 .f32) : Vec F S100000x384 .f32 :=
  broadcastInDim S100000x384 ![0, 1] bcast_S1x384_S100000x384_0_1 (val_main_v93 x13)

abbrev idx_main_v94 (i : S100000x384.Idx) : S1x384.Idx := fun a => match a with
  | ⟨0, _⟩ => ⟨0, Nat.one_pos⟩
  | ⟨1, _⟩ => ⟨(i 1).val, (i 1).isLt⟩

theorem val_main_v94_apply (x13 : Vec F S384 .f32) (i : S100000x384.Idx) :
    val_main_v94 x13 i = val_main_v93 x13 (idx_main_v94 i) := by
  unfold val_main_v94
  generalize val_main_v93 x13 = y
  exact broadcastInDim_apply _ bcast_S1x384_S100000x384_0_1 y i (idx_main_v94 i) (fun a => match a with
    | ⟨0, _⟩ => by show 0 = if (1 : Nat) = 1 then 0 else (i 0).val; rw [if_pos rfl]
    | ⟨1, _⟩ => by show (i 1).val = if (384 : Nat) = 1 then 0 else (i 1).val; rw [if_neg (by decide)])

def val_main_v95 (x0 : Vec F S100000 .i32) (x6 : Vec F S100000x384 .f32) (x11 : Vec F S384x128 .f32) (x13 : Vec F S384 .f32) : Vec F S100000x384 .f32 :=
  addf (val_main_v92 x0 x6 x11) (val_main_v94 x13)

theorem val_main_v95_apply (x0 : Vec F S100000 .i32) (x6 : Vec F S100000x384 .f32) (x11 : Vec F S384x128 .f32) (x13 : Vec F S384 .f32) (i : S100000x384.Idx) :
    val_main_v95 x0 x6 x11 x13 i = FloatOps.addf (val_main_v92 x0 x6 x11 i) (val_main_v94 x13 i) := rfl

def val_main_v96 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) : Vec F S100000x128 .f32 :=
  extractStridedSlice S100000x128 ![0, 0] (val_main_v90 x0 x1 x2 x3 x4 x5 x6 x7 x8 x9 x10 x12) slices_S100000x384_S100000x128_0_0

abbrev idx_main_v96 (i : S100000x128.Idx) : S100000x384.Idx := fun a => match a with
  | ⟨0, _⟩ => ⟨(i 0).val, (i 0).isLt⟩
  | ⟨1, _⟩ => ⟨(i 1).val, by have h1 : (i 1).val < 128 := (i 1).isLt; show (i 1).val < 384; omega⟩

theorem val_main_v96_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) (i : S100000x128.Idx) :
    val_main_v96 x0 x1 x2 x3 x4 x5 x6 x7 x8 x9 x10 x12 i = val_main_v90 x0 x1 x2 x3 x4 x5 x6 x7 x8 x9 x10 x12 (idx_main_v96 i) := by
  unfold val_main_v96
  generalize val_main_v90 x0 x1 x2 x3 x4 x5 x6 x7 x8 x9 x10 x12 = y
  exact extractStridedSlice_apply ![0, 0] y slices_S100000x384_S100000x128_0_0 i (idx_main_v96 i) (fun a => match a with
    | ⟨0, _⟩ => by show (i 0).val = 0 + (i 0).val; omega
    | ⟨1, _⟩ => by show (i 1).val = 0 + (i 1).val; omega)

def val_main_v97 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) : Vec F S100000x128 .f32 :=
  extractStridedSlice S100000x128 ![0, 128] (val_main_v90 x0 x1 x2 x3 x4 x5 x6 x7 x8 x9 x10 x12) slices_S100000x384_S100000x128_0_128

abbrev idx_main_v97 (i : S100000x128.Idx) : S100000x384.Idx := fun a => match a with
  | ⟨0, _⟩ => ⟨(i 0).val, (i 0).isLt⟩
  | ⟨1, _⟩ => ⟨128 + (i 1).val, by have h1 : (i 1).val < 128 := (i 1).isLt; show 128 + (i 1).val < 384; omega⟩

theorem val_main_v97_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) (i : S100000x128.Idx) :
    val_main_v97 x0 x1 x2 x3 x4 x5 x6 x7 x8 x9 x10 x12 i = val_main_v90 x0 x1 x2 x3 x4 x5 x6 x7 x8 x9 x10 x12 (idx_main_v97 i) := by
  unfold val_main_v97
  generalize val_main_v90 x0 x1 x2 x3 x4 x5 x6 x7 x8 x9 x10 x12 = y
  exact extractStridedSlice_apply ![0, 128] y slices_S100000x384_S100000x128_0_128 i (idx_main_v97 i) (fun a => match a with
    | ⟨0, _⟩ => by show (i 0).val = 0 + (i 0).val; omega
    | ⟨1, _⟩ => by show 128 + (i 1).val = 128 + (i 1).val; omega)

def val_main_v98 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) : Vec F S100000x128 .f32 :=
  extractStridedSlice S100000x128 ![0, 256] (val_main_v90 x0 x1 x2 x3 x4 x5 x6 x7 x8 x9 x10 x12) slices_S100000x384_S100000x128_0_256

abbrev idx_main_v98 (i : S100000x128.Idx) : S100000x384.Idx := fun a => match a with
  | ⟨0, _⟩ => ⟨(i 0).val, (i 0).isLt⟩
  | ⟨1, _⟩ => ⟨256 + (i 1).val, by have h1 : (i 1).val < 128 := (i 1).isLt; show 256 + (i 1).val < 384; omega⟩

theorem val_main_v98_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x12 : Vec F S384 .f32) (i : S100000x128.Idx) :
    val_main_v98 x0 x1 x2 x3 x4 x5 x6 x7 x8 x9 x10 x12 i = val_main_v90 x0 x1 x2 x3 x4 x5 x6 x7 x8 x9 x10 x12 (idx_main_v98 i) := by
  unfold val_main_v98
  generalize val_main_v90 x0 x1 x2 x3 x4 x5 x6 x7 x8 x9 x10 x12 = y
  exact extractStridedSlice_apply ![0, 256] y slices_S100000x384_S100000x128_0_256 i (idx_main_v98 i) (fun a => match a with
    | ⟨0, _⟩ => by show (i 0).val = 0 + (i 0).val; omega
    | ⟨1, _⟩ => by show 256 + (i 1).val = 256 + (i 1).val; omega)

def val_main_v99 (x0 : Vec F S100000 .i32) (x6 : Vec F S100000x384 .f32) (x11 : Vec F S384x128 .f32) (x13 : Vec F S384 .f32) : Vec F S100000x128 .f32 :=
  extractStridedSlice S100000x128 ![0, 0] (val_main_v95 x0 x6 x11 x13) slices_S100000x384_S100000x128_0_0

abbrev idx_main_v99 (i : S100000x128.Idx) : S100000x384.Idx := fun a => match a with
  | ⟨0, _⟩ => ⟨(i 0).val, (i 0).isLt⟩
  | ⟨1, _⟩ => ⟨(i 1).val, by have h1 : (i 1).val < 128 := (i 1).isLt; show (i 1).val < 384; omega⟩

theorem val_main_v99_apply (x0 : Vec F S100000 .i32) (x6 : Vec F S100000x384 .f32) (x11 : Vec F S384x128 .f32) (x13 : Vec F S384 .f32) (i : S100000x128.Idx) :
    val_main_v99 x0 x6 x11 x13 i = val_main_v95 x0 x6 x11 x13 (idx_main_v99 i) := by
  unfold val_main_v99
  generalize val_main_v95 x0 x6 x11 x13 = y
  exact extractStridedSlice_apply ![0, 0] y slices_S100000x384_S100000x128_0_0 i (idx_main_v99 i) (fun a => match a with
    | ⟨0, _⟩ => by show (i 0).val = 0 + (i 0).val; omega
    | ⟨1, _⟩ => by show (i 1).val = 0 + (i 1).val; omega)

def val_main_v100 (x0 : Vec F S100000 .i32) (x6 : Vec F S100000x384 .f32) (x11 : Vec F S384x128 .f32) (x13 : Vec F S384 .f32) : Vec F S100000x128 .f32 :=
  extractStridedSlice S100000x128 ![0, 128] (val_main_v95 x0 x6 x11 x13) slices_S100000x384_S100000x128_0_128

abbrev idx_main_v100 (i : S100000x128.Idx) : S100000x384.Idx := fun a => match a with
  | ⟨0, _⟩ => ⟨(i 0).val, (i 0).isLt⟩
  | ⟨1, _⟩ => ⟨128 + (i 1).val, by have h1 : (i 1).val < 128 := (i 1).isLt; show 128 + (i 1).val < 384; omega⟩

theorem val_main_v100_apply (x0 : Vec F S100000 .i32) (x6 : Vec F S100000x384 .f32) (x11 : Vec F S384x128 .f32) (x13 : Vec F S384 .f32) (i : S100000x128.Idx) :
    val_main_v100 x0 x6 x11 x13 i = val_main_v95 x0 x6 x11 x13 (idx_main_v100 i) := by
  unfold val_main_v100
  generalize val_main_v95 x0 x6 x11 x13 = y
  exact extractStridedSlice_apply ![0, 128] y slices_S100000x384_S100000x128_0_128 i (idx_main_v100 i) (fun a => match a with
    | ⟨0, _⟩ => by show (i 0).val = 0 + (i 0).val; omega
    | ⟨1, _⟩ => by show 128 + (i 1).val = 128 + (i 1).val; omega)

def val_main_v101 (x0 : Vec F S100000 .i32) (x6 : Vec F S100000x384 .f32) (x11 : Vec F S384x128 .f32) (x13 : Vec F S384 .f32) : Vec F S100000x128 .f32 :=
  extractStridedSlice S100000x128 ![0, 256] (val_main_v95 x0 x6 x11 x13) slices_S100000x384_S100000x128_0_256

abbrev idx_main_v101 (i : S100000x128.Idx) : S100000x384.Idx := fun a => match a with
  | ⟨0, _⟩ => ⟨(i 0).val, (i 0).isLt⟩
  | ⟨1, _⟩ => ⟨256 + (i 1).val, by have h1 : (i 1).val < 128 := (i 1).isLt; show 256 + (i 1).val < 384; omega⟩

theorem val_main_v101_apply (x0 : Vec F S100000 .i32) (x6 : Vec F S100000x384 .f32) (x11 : Vec F S384x128 .f32) (x13 : Vec F S384 .f32) (i : S100000x128.Idx) :
    val_main_v101 x0 x6 x11 x13 i = val_main_v95 x0 x6 x11 x13 (idx_main_v101 i) := by
  unfold val_main_v101
  generalize val_main_v95 x0 x6 x11 x13 = y
  exact extractStridedSlice_apply ![0, 256] y slices_S100000x384_S100000x128_0_256 i (idx_main_v101 i) (fun a => match a with
    | ⟨0, _⟩ => by show (i 0).val = 0 + (i 0).val; omega
    | ⟨1, _⟩ => by show 256 + (i 1).val = 256 + (i 1).val; omega)

def val_main_v102 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  addf (val_main_v96 x0 x1 x2 x3 x4 x5 x6 x7 x8 x9 x10 x12) (val_main_v99 x0 x6 x11 x13)

theorem val_main_v102_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v102 x0 x1 x2 x3 x4 x5 x6 x7 x8 x9 x10 x11 x12 x13 i = FloatOps.addf (val_main_v96 x0 x1 x2 x3 x4 x5 x6 x7 x8 x9 x10 x12 i) (val_main_v99 x0 x6 x11 x13 i) := rfl

def val_main_v103 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  Host.negf (val_main_v102 x0 x1 x2 x3 x4 x5 x6 x7 x8 x9 x10 x11 x12 x13)

theorem val_main_v103_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v103 x0 x1 x2 x3 x4 x5 x6 x7 x8 x9 x10 x11 x12 x13 i = FloatOps.hostNegf (val_main_v102 x0 x1 x2 x3 x4 x5 x6 x7 x8 x9 x10 x11 x12 x13 i) := rfl

def val_main_v104 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  Host.exp (val_main_v103 x0 x1 x2 x3 x4 x5 x6 x7 x8 x9 x10 x11 x12 x13)

theorem val_main_v104_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v104 x0 x1 x2 x3 x4 x5 x6 x7 x8 x9 x10 x11 x12 x13 i = FloatOps.hostUnary .exp (val_main_v103 x0 x1 x2 x3 x4 x5 x6 x7 x8 x9 x10 x11 x12 x13 i) := rfl

def val_main_cst_21 : Vec F S_ .f32 :=
  constant S_ .f32 0x3F800000#32

theorem val_main_cst_21_apply (i : S_.Idx) :
    val_main_cst_21 (F := F) i = FloatOps.ofBits .f32 0x3F800000#32 := rfl

def val_main_v105 : Vec F S100000x128 .f32 :=
  broadcastInDim S100000x128 ![] bcast_S_S100000x128 (val_main_cst_21 (F := F))

abbrev idx_main_v105 (i : S100000x128.Idx) : S_.Idx := fun a => a.elim0

theorem val_main_v105_apply (i : S100000x128.Idx) :
    val_main_v105 (F := F) i = val_main_cst_21 (F := F) (idx_main_v105 i) := by
  unfold val_main_v105
  generalize val_main_cst_21 (F := F) = y
  exact broadcastInDim_apply _ bcast_S_S100000x128 y i (idx_main_v105 i) (fun a => a.elim0)

def val_main_v106 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  addf (val_main_v105 (F := F)) (val_main_v104 x0 x1 x2 x3 x4 x5 x6 x7 x8 x9 x10 x11 x12 x13)

theorem val_main_v106_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v106 x0 x1 x2 x3 x4 x5 x6 x7 x8 x9 x10 x11 x12 x13 i = FloatOps.addf (val_main_v105 (F := F) i) (val_main_v104 x0 x1 x2 x3 x4 x5 x6 x7 x8 x9 x10 x11 x12 x13 i) := rfl

def val_main_cst_22 : Vec F S_ .f32 :=
  constant S_ .f32 0x3F800000#32

theorem val_main_cst_22_apply (i : S_.Idx) :
    val_main_cst_22 (F := F) i = FloatOps.ofBits .f32 0x3F800000#32 := rfl

def val_main_v107 : Vec F S100000x128 .f32 :=
  broadcastInDim S100000x128 ![] bcast_S_S100000x128 (val_main_cst_22 (F := F))

abbrev idx_main_v107 (i : S100000x128.Idx) : S_.Idx := fun a => a.elim0

theorem val_main_v107_apply (i : S100000x128.Idx) :
    val_main_v107 (F := F) i = val_main_cst_22 (F := F) (idx_main_v107 i) := by
  unfold val_main_v107
  generalize val_main_cst_22 (F := F) = y
  exact broadcastInDim_apply _ bcast_S_S100000x128 y i (idx_main_v107 i) (fun a => a.elim0)

def val_main_v108 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  Host.divf (val_main_v107 (F := F)) (val_main_v106 x0 x1 x2 x3 x4 x5 x6 x7 x8 x9 x10 x11 x12 x13)

theorem val_main_v108_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v108 x0 x1 x2 x3 x4 x5 x6 x7 x8 x9 x10 x11 x12 x13 i = FloatOps.hostDivf (val_main_v107 (F := F) i) (val_main_v106 x0 x1 x2 x3 x4 x5 x6 x7 x8 x9 x10 x11 x12 x13 i) := rfl

def val_main_v109 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  addf (val_main_v97 x0 x1 x2 x3 x4 x5 x6 x7 x8 x9 x10 x12) (val_main_v100 x0 x6 x11 x13)

theorem val_main_v109_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v109 x0 x1 x2 x3 x4 x5 x6 x7 x8 x9 x10 x11 x12 x13 i = FloatOps.addf (val_main_v97 x0 x1 x2 x3 x4 x5 x6 x7 x8 x9 x10 x12 i) (val_main_v100 x0 x6 x11 x13 i) := rfl

def val_main_v110 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  Host.negf (val_main_v109 x0 x1 x2 x3 x4 x5 x6 x7 x8 x9 x10 x11 x12 x13)

theorem val_main_v110_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v110 x0 x1 x2 x3 x4 x5 x6 x7 x8 x9 x10 x11 x12 x13 i = FloatOps.hostNegf (val_main_v109 x0 x1 x2 x3 x4 x5 x6 x7 x8 x9 x10 x11 x12 x13 i) := rfl

def val_main_v111 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  Host.exp (val_main_v110 x0 x1 x2 x3 x4 x5 x6 x7 x8 x9 x10 x11 x12 x13)

theorem val_main_v111_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v111 x0 x1 x2 x3 x4 x5 x6 x7 x8 x9 x10 x11 x12 x13 i = FloatOps.hostUnary .exp (val_main_v110 x0 x1 x2 x3 x4 x5 x6 x7 x8 x9 x10 x11 x12 x13 i) := rfl

def val_main_cst_23 : Vec F S_ .f32 :=
  constant S_ .f32 0x3F800000#32

theorem val_main_cst_23_apply (i : S_.Idx) :
    val_main_cst_23 (F := F) i = FloatOps.ofBits .f32 0x3F800000#32 := rfl

def val_main_v112 : Vec F S100000x128 .f32 :=
  broadcastInDim S100000x128 ![] bcast_S_S100000x128 (val_main_cst_23 (F := F))

abbrev idx_main_v112 (i : S100000x128.Idx) : S_.Idx := fun a => a.elim0

theorem val_main_v112_apply (i : S100000x128.Idx) :
    val_main_v112 (F := F) i = val_main_cst_23 (F := F) (idx_main_v112 i) := by
  unfold val_main_v112
  generalize val_main_cst_23 (F := F) = y
  exact broadcastInDim_apply _ bcast_S_S100000x128 y i (idx_main_v112 i) (fun a => a.elim0)

def val_main_v113 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  addf (val_main_v112 (F := F)) (val_main_v111 x0 x1 x2 x3 x4 x5 x6 x7 x8 x9 x10 x11 x12 x13)

theorem val_main_v113_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v113 x0 x1 x2 x3 x4 x5 x6 x7 x8 x9 x10 x11 x12 x13 i = FloatOps.addf (val_main_v112 (F := F) i) (val_main_v111 x0 x1 x2 x3 x4 x5 x6 x7 x8 x9 x10 x11 x12 x13 i) := rfl

def val_main_cst_24 : Vec F S_ .f32 :=
  constant S_ .f32 0x3F800000#32

theorem val_main_cst_24_apply (i : S_.Idx) :
    val_main_cst_24 (F := F) i = FloatOps.ofBits .f32 0x3F800000#32 := rfl

def val_main_v114 : Vec F S100000x128 .f32 :=
  broadcastInDim S100000x128 ![] bcast_S_S100000x128 (val_main_cst_24 (F := F))

abbrev idx_main_v114 (i : S100000x128.Idx) : S_.Idx := fun a => a.elim0

theorem val_main_v114_apply (i : S100000x128.Idx) :
    val_main_v114 (F := F) i = val_main_cst_24 (F := F) (idx_main_v114 i) := by
  unfold val_main_v114
  generalize val_main_cst_24 (F := F) = y
  exact broadcastInDim_apply _ bcast_S_S100000x128 y i (idx_main_v114 i) (fun a => a.elim0)

def val_main_v115 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  Host.divf (val_main_v114 (F := F)) (val_main_v113 x0 x1 x2 x3 x4 x5 x6 x7 x8 x9 x10 x11 x12 x13)

theorem val_main_v115_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v115 x0 x1 x2 x3 x4 x5 x6 x7 x8 x9 x10 x11 x12 x13 i = FloatOps.hostDivf (val_main_v114 (F := F) i) (val_main_v113 x0 x1 x2 x3 x4 x5 x6 x7 x8 x9 x10 x11 x12 x13 i) := rfl

def val_main_v116 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  mulf (val_main_v108 x0 x1 x2 x3 x4 x5 x6 x7 x8 x9 x10 x11 x12 x13) (val_main_v101 x0 x6 x11 x13)

theorem val_main_v116_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v116 x0 x1 x2 x3 x4 x5 x6 x7 x8 x9 x10 x11 x12 x13 i = FloatOps.mulf (val_main_v108 x0 x1 x2 x3 x4 x5 x6 x7 x8 x9 x10 x11 x12 x13 i) (val_main_v101 x0 x6 x11 x13 i) := rfl

def val_main_v117 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  addf (val_main_v98 x0 x1 x2 x3 x4 x5 x6 x7 x8 x9 x10 x12) (val_main_v116 x0 x1 x2 x3 x4 x5 x6 x7 x8 x9 x10 x11 x12 x13)

theorem val_main_v117_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v117 x0 x1 x2 x3 x4 x5 x6 x7 x8 x9 x10 x11 x12 x13 i = FloatOps.addf (val_main_v98 x0 x1 x2 x3 x4 x5 x6 x7 x8 x9 x10 x12 i) (val_main_v116 x0 x1 x2 x3 x4 x5 x6 x7 x8 x9 x10 x11 x12 x13 i) := rfl

def val_main_v118 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  Host.tanh (val_main_v117 x0 x1 x2 x3 x4 x5 x6 x7 x8 x9 x10 x11 x12 x13)

theorem val_main_v118_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v118 x0 x1 x2 x3 x4 x5 x6 x7 x8 x9 x10 x11 x12 x13 i = FloatOps.hostUnary .tanh (val_main_v117 x0 x1 x2 x3 x4 x5 x6 x7 x8 x9 x10 x11 x12 x13 i) := rfl

def val_main_cst_25 : Vec F S_ .f32 :=
  constant S_ .f32 0x3F800000#32

theorem val_main_cst_25_apply (i : S_.Idx) :
    val_main_cst_25 (F := F) i = FloatOps.ofBits .f32 0x3F800000#32 := rfl

def val_main_v119 : Vec F S100000x128 .f32 :=
  broadcastInDim S100000x128 ![] bcast_S_S100000x128 (val_main_cst_25 (F := F))

abbrev idx_main_v119 (i : S100000x128.Idx) : S_.Idx := fun a => a.elim0

theorem val_main_v119_apply (i : S100000x128.Idx) :
    val_main_v119 (F := F) i = val_main_cst_25 (F := F) (idx_main_v119 i) := by
  unfold val_main_v119
  generalize val_main_cst_25 (F := F) = y
  exact broadcastInDim_apply _ bcast_S_S100000x128 y i (idx_main_v119 i) (fun a => a.elim0)

def val_main_v120 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  subf (val_main_v119 (F := F)) (val_main_v115 x0 x1 x2 x3 x4 x5 x6 x7 x8 x9 x10 x11 x12 x13)

theorem val_main_v120_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v120 x0 x1 x2 x3 x4 x5 x6 x7 x8 x9 x10 x11 x12 x13 i = FloatOps.subf (val_main_v119 (F := F) i) (val_main_v115 x0 x1 x2 x3 x4 x5 x6 x7 x8 x9 x10 x11 x12 x13 i) := rfl

def val_main_v121 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  mulf (val_main_v120 x0 x1 x2 x3 x4 x5 x6 x7 x8 x9 x10 x11 x12 x13) (val_main_v118 x0 x1 x2 x3 x4 x5 x6 x7 x8 x9 x10 x11 x12 x13)

theorem val_main_v121_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v121 x0 x1 x2 x3 x4 x5 x6 x7 x8 x9 x10 x11 x12 x13 i = FloatOps.mulf (val_main_v120 x0 x1 x2 x3 x4 x5 x6 x7 x8 x9 x10 x11 x12 x13 i) (val_main_v118 x0 x1 x2 x3 x4 x5 x6 x7 x8 x9 x10 x11 x12 x13 i) := rfl

def val_main_v122 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  mulf (val_main_v115 x0 x1 x2 x3 x4 x5 x6 x7 x8 x9 x10 x11 x12 x13) (val_main_v8 x0 x6)

theorem val_main_v122_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v122 x0 x1 x2 x3 x4 x5 x6 x7 x8 x9 x10 x11 x12 x13 i = FloatOps.mulf (val_main_v115 x0 x1 x2 x3 x4 x5 x6 x7 x8 x9 x10 x11 x12 x13 i) (val_main_v8 x0 x6 i) := rfl

def val_main_v123 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x128 .f32 :=
  addf (val_main_v121 x0 x1 x2 x3 x4 x5 x6 x7 x8 x9 x10 x11 x12 x13) (val_main_v122 x0 x1 x2 x3 x4 x5 x6 x7 x8 x9 x10 x11 x12 x13)

theorem val_main_v123_apply (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) (i : S100000x128.Idx) :
    val_main_v123 x0 x1 x2 x3 x4 x5 x6 x7 x8 x9 x10 x11 x12 x13 i = FloatOps.addf (val_main_v121 x0 x1 x2 x3 x4 x5 x6 x7 x8 x9 x10 x11 x12 x13 i) (val_main_v122 x0 x1 x2 x3 x4 x5 x6 x7 x8 x9 x10 x11 x12 x13 i) := rfl

def val_main_v124 (x0 : Vec F S100000 .i32) (x1 x2 x3 x4 : Vec F S50000 .i32) (x5 : Vec F S50000x64 .f32) (x6 : Vec F S100000x384 .f32) (x7 : Vec F S100000 .i32) (x8 : Vec F S1x64 .f32) (x9 : Vec F S64 .f32) (x10 : Vec F S384x1280 .f32) (x11 : Vec F S384x128 .f32) (x12 x13 : Vec F S384 .f32) : Vec F S100000x384 .f32 :=
  concatenate S100000x384 1 [⟨S100000x128, (val_main_v123 x0 x1 x2 x3 x4 x5 x6 x7 x8 x9 x10 x11 x12 x13)⟩, ⟨S100000x256, (val_main_v17 x0 x6)⟩] concatenates_S100000x128_S100000x256_S100000x384_d1

def val_main_c_26 : Vec F S_ .i32 :=
  constantI S_ 32 0#32

def val_main_v125 : Vec F S100000 .i32 :=
  broadcastInDim S100000 ![] bcast_S_S100000 (val_main_c_26 (F := F))

def val_main_c_27 : Vec F S_ .i32 :=
  constantI S_ 32 0#32

def val_main_v126 : Vec F S150000 .i32 :=
  broadcastInDim S150000 ![] bcast_S_S150000 (val_main_c_27 (F := F))

def val_main_v127 (x1 x2 x3 : Vec F S50000 .i32) : Vec F S150000 .i1 :=
  cmpi .slt (val_main_v64 x1 x2 x3) (val_main_v126 (F := F))

def val_main_c_28 : Vec F S_ .i32 :=
  constantI S_ 32 100000#32

def val_main_v128 : Vec F S150000 .i32 :=
  broadcastInDim S150000 ![] bcast_S_S150000 (val_main_c_28 (F := F))

def val_main_v129 (x1 x2 x3 : Vec F S50000 .i32) : Vec F S150000 .i32 :=
  addi (val_main_v64 x1 x2 x3) (val_main_v128 (F := F))

def val_main_v130 (x1 x2 x3 : Vec F S50000 .i32) : Vec F S150000 .i32 :=
  select (val_main_v127 x1 x2 x3) (val_main_v129 x1 x2 x3) (val_main_v64 x1 x2 x3)

def val_main_v131 (x1 x2 x3 : Vec F S50000 .i32) : Vec F S150000x1 .i32 :=
  broadcastInDim S150000x1 ![0] bcast_S150000_S150000x1_0 (val_main_v130 x1 x2 x3)

def val_main_v132 (x1 x2 x3 x4 : Vec F S50000 .i32) : Vec F S100000 .i32 :=
  Host.scatter scatter_S100000_S150000x1_S150000_n_0_0_1 IntOp.maxsi (val_main_v125 (F := F)) (val_main_v131 x1 x2 x3) (val_main_v73 x4)

def val_main_c_29 : Vec F S_ .i32 :=
  constantI S_ 32 0#32

def val_main_v133 : Vec F S100000 .i32 :=
  broadcastInDim S100000 ![] bcast_S_S100000 (val_main_c_29 (F := F))

def val_main_v134 (x0 : Vec F S100000 .i32) : Vec F S100000 .i1 :=
  cmpi .slt x0 (val_main_v133 (F := F))

def val_main_c_30 : Vec F S_ .i32 :=
  constantI S_ 32 100000#32

def val_main_v135 : Vec F S100000 .i32 :=
  broadcastInDim S100000 ![] bcast_S_S100000 (val_main_c_30 (F := F))

def val_main_v136 (x0 : Vec F S100000 .i32) : Vec F S100000 .i32 :=
  addi x0 (val_main_v135 (F := F))

def val_main_v137 (x0 : Vec F S100000 .i32) : Vec F S100000 .i32 :=
  select (val_main_v134 x0) (val_main_v136 x0) x0

def val_main_v138 (x0 : Vec F S100000 .i32) : Vec F S100000x1 .i32 :=
  broadcastInDim S100000x1 ![0] bcast_S100000_S100000x1_0 (val_main_v137 x0)

def val_main_v139 (x0 : Vec F S100000 .i32) (x1 x2 x3 x4 : Vec F S50000 .i32) : Vec F S100000 .i32 :=
  Host.gather gather_S100000_S100000x1_S100000_n_0_n_n_0_1_1 (val_main_v132 x1 x2 x3 x4) (val_main_v138 x0)

end Cert.ReferenceIdeal.ReadP

end
-- ==== Proof.RefRunCut.lean ====
import proofs.«408144_j33174327394705_3_alg».proof.Proof.RefReadP
import Idealize.ShloMosaic.Lib.StableHlo.Run
noncomputable section
namespace Cert.ReferenceIdeal.RunCut
open Cert.ReferenceIdeal Cert.ReferenceIdeal.Gen Idealize.ShloMosaic Idealize.ShloMosaic.TcCoe Idealize.SL.Sem Idealize.ShloMosaic.StableHlo

variable {F : FTy → Type} [FloatOps F]

def catCols (a b : IVec S100000x1 32) : IVec S100000x2 32 :=
  concatenate S100000x2 1 [⟨S100000x1, a⟩, ⟨S100000x1, b⟩] concatenates_S100000x1_S100000x1_S100000x2_d1

def catOut (a : Vec F S100000x128 .f32) (b : Vec F S100000x256 .f32) : Vec F S100000x384 .f32 :=
  concatenate S100000x384 1 [⟨S100000x128, a⟩, ⟨S100000x256, b⟩] concatenates_S100000x128_S100000x256_S100000x384_d1

def catMsg (p q r : Vec F S50000x384 .f32) (e t : Vec F S50000x64 .f32) : Vec F S50000x1280 .f32 :=
  concatenate S50000x1280 1 [⟨S50000x384, p⟩, ⟨S50000x384, q⟩, ⟨S50000x384, r⟩, ⟨S50000x64, e⟩, ⟨S50000x64, t⟩]
    concatenates_S50000x384_S50000x384_S50000x384_S50000x64_S50000x64_S50000x1280_d1

def catIds (a b c : IVec S50000 32) : IVec S150000 32 :=
  concatenate S150000 0 [⟨S50000, a⟩, ⟨S50000, b⟩, ⟨S50000, c⟩] concatenates_S50000_S50000_S50000_S150000_d0

def catMsg3 (p q r : Vec F S50000x1280 .f32) : Vec F S150000x1280 .f32 :=
  concatenate S150000x1280 0 [⟨S50000x1280, p⟩, ⟨S50000x1280, q⟩, ⟨S50000x1280, r⟩]
    concatenates_S50000x1280_S50000x1280_S50000x1280_S150000x1280_d0

abbrev ops : List (HloOp τ sig (Elt F)) :=
  [ nullary main_c (constantI S_ 32 0#32),
    unary main_c main_v0 (broadcastInDim S100000 ![] bcast_S_S100000),
    binary main_arg0 main_v0 main_v1 (cmpi .slt),
    nullary main_c_0 (constantI S_ 32 100000#32),
    unary main_c_0 main_v2 (broadcastInDim S100000 ![] bcast_S_S100000),
    binary main_arg0 main_v2 main_v3 addi,
    ternary main_v1 main_v3 main_arg0 main_v4 select,
    unary main_v4 main_v5 (broadcastInDim S100000x1 ![0] bcast_S100000_S100000x1_0),
    nullary main_c_1 (constantI S_ 32 0#32),
    unary main_c_1 main_v6 (broadcastInDim S100000x1 ![] bcast_S_S100000x1),
    binary main_v5 main_v6 main_v7 catCols,
    binary main_arg6 main_v7 main_v8 (Host.gather gather_S100000x384_S100000x2_S100000x128_1_0_n_n_01_1_1128),
    nullary main_c_2 (constantI S_ 32 0#32),
    unary main_c_2 main_v9 (broadcastInDim S100000 ![] bcast_S_S100000),
    binary main_arg0 main_v9 main_v10 (cmpi .slt),
    nullary main_c_3 (constantI S_ 32 100000#32),
    unary main_c_3 main_v11 (broadcastInDim S100000 ![] bcast_S_S100000),
    binary main_arg0 main_v11 main_v12 addi,
    ternary main_v10 main_v12 main_arg0 main_v13 select,
    unary main_v13 main_v14 (broadcastInDim S100000x1 ![0] bcast_S100000_S100000x1_0),
    nullary main_c_4 (constantI S_ 32 128#32),
    unary main_c_4 main_v15 (broadcastInDim S100000x1 ![] bcast_S_S100000x1),
    binary main_v14 main_v15 main_v16 catCols,
    binary main_arg6 main_v16 main_v17 (Host.gather gather_S100000x384_S100000x2_S100000x256_1_0_n_n_01_1_1256),
    nullary main_c_5 (constantI S_ 32 0#32),
    unary main_c_5 main_v18 (broadcastInDim S50000 ![] bcast_S_S50000),
    binary main_arg1 main_v18 main_v19 (cmpi .slt),
    nullary main_c_6 (constantI S_ 32 100000#32),
    unary main_c_6 main_v20 (broadcastInDim S50000 ![] bcast_S_S50000),
    binary main_arg1 main_v20 main_v21 addi,
    ternary main_v19 main_v21 main_arg1 main_v22 select,
    unary main_v22 main_v23 (broadcastInDim S50000x1 ![0] bcast_S50000_S50000x1_0),
    binary main_arg7 main_v23 main_v24 (Host.gather gather_S100000_S50000x1_S50000_n_0_n_n_0_1_1),
    binary main_arg4 main_v24 main_v25 subi,
    unary main_v25 main_v26 (sitofp .f32),
    unary main_v26 main_v27 (broadcastInDim S50000x1 ![0] bcast_S50000_S50000x1_0),
    binary main_v27 main_arg8 main_v28 (Host.dotGeneral dot_S50000x1_S1x64_S50000x64_1_0_0_1_n_n none),
    unary main_arg9 main_v29 (broadcastInDim S1x64 ![1] bcast_S64_S1x64_1),
    unary main_v29 main_v30 (broadcastInDim S50000x64 ![0, 1] bcast_S1x64_S50000x64_0_1),
    binary main_v28 main_v30 main_v31 addf,
    unary main_v31 main_v32 Host.cos,
    nullary main_c_7 (constantI S_ 32 0#32),
    unary main_c_7 main_v33 (broadcastInDim S50000 ![] bcast_S_S50000),
    binary main_arg1 main_v33 main_v34 (cmpi .slt),
    nullary main_c_8 (constantI S_ 32 100000#32),
    unary main_c_8 main_v35 (broadcastInDim S50000 ![] bcast_S_S50000),
    binary main_arg1 main_v35 main_v36 addi,
    ternary main_v34 main_v36 main_arg1 main_v37 select,
    unary main_v37 main_v38 (broadcastInDim S50000x1 ![0] bcast_S50000_S50000x1_0),
    binary main_arg6 main_v38 main_v39 (Host.gather gather_S100000x384_S50000x1_S50000x384_1_0_n_n_0_1_1384),
    nullary main_c_9 (constantI S_ 32 0#32),
    unary main_c_9 main_v40 (broadcastInDim S50000 ![] bcast_S_S50000),
    binary main_arg2 main_v40 main_v41 (cmpi .slt),
    nullary main_c_10 (constantI S_ 32 100000#32),
    unary main_c_10 main_v42 (broadcastInDim S50000 ![] bcast_S_S50000),
    binary main_arg2 main_v42 main_v43 addi,
    ternary main_v41 main_v43 main_arg2 main_v44 select,
    unary main_v44 main_v45 (broadcastInDim S50000x1 ![0] bcast_S50000_S50000x1_0),
    binary main_arg6 main_v45 main_v46 (Host.gather gather_S100000x384_S50000x1_S50000x384_1_0_n_n_0_1_1384),
    nullary main_c_11 (constantI S_ 32 0#32),
    unary main_c_11 main_v47 (broadcastInDim S50000 ![] bcast_S_S50000),
    binary main_arg3 main_v47 main_v48 (cmpi .slt),
    nullary main_c_12 (constantI S_ 32 100000#32),
    unary main_c_12 main_v49 (broadcastInDim S50000 ![] bcast_S_S50000),
    binary main_arg3 main_v49 main_v50 addi,
    ternary main_v48 main_v50 main_arg3 main_v51 select,
    unary main_v51 main_v52 (broadcastInDim S50000x1 ![0] bcast_S50000_S50000x1_0),
    binary main_arg6 main_v52 main_v53 (Host.gather gather_S100000x384_S50000x1_S50000x384_1_0_n_n_0_1_1384),
    nary ![main_v39, main_v46, main_v53, main_arg5, main_v32] main_v54 (fun u => catMsg (u 0) (u 1) (u 2) (u 3) (u 4)),
    nullary main_c_13 (constantI S_ 32 0#32),
    unary main_c_13 main_v55 (broadcastInDim S100000 ![] bcast_S_S100000),
    nullary main_v56 (iotaInDim S100000 32 0),
    nullary main_c_14 (constantI S_ 32 0#32),
    unary main_c_14 main_v57 (broadcastInDim S100000 ![] bcast_S_S100000),
    binary main_arg0 main_v57 main_v58 (cmpi .slt),
    nullary main_c_15 (constantI S_ 32 100000#32),
    unary main_c_15 main_v59 (broadcastInDim S100000 ![] bcast_S_S100000),
    binary main_arg0 main_v59 main_v60 addi,
    ternary main_v58 main_v60 main_arg0 main_v61 select,
    unary main_v61 main_v62 (broadcastInDim S100000x1 ![0] bcast_S100000_S100000x1_0),
    ternary main_v55 main_v62 main_v56 main_v63 (Host.scatter scatter_S100000_S100000x1_S100000_n_0_0_1 (fun _ b => b)),
    nary ![main_arg1, main_arg2, main_arg3] main_v64 (fun u => catIds (u 0) (u 1) (u 2)),
    nullary main_c_16 (constantI S_ 32 0#32),
    unary main_c_16 main_v65 (broadcastInDim S150000 ![] bcast_S_S150000),
    binary main_v64 main_v65 main_v66 (cmpi .slt),
    nullary main_c_17 (constantI S_ 32 100000#32),
    unary main_c_17 main_v67 (broadcastInDim S150000 ![] bcast_S_S150000),
    binary main_v64 main_v67 main_v68 addi,
    ternary main_v66 main_v68 main_v64 main_v69 select,
    unary main_v69 main_v70 (broadcastInDim S150000x1 ![0] bcast_S150000_S150000x1_0),
    binary main_v63 main_v70 main_v71 (Host.gather gather_S100000_S150000x1_S150000_n_0_n_n_0_1_1),
    nary ![main_v54, main_v54, main_v54] main_v72 (fun u => catMsg3 (u 0) (u 1) (u 2)),
    nary ![main_arg4, main_arg4, main_arg4] main_v73 (fun u => catIds (u 0) (u 1) (u 2)),
    nullary main_cst (constant S_ .f32 0x00000000#32),
    unary main_cst main_v74 (broadcastInDim S100000x1280 ![] bcast_S_S100000x1280),
    unary main_v71 main_v75 (broadcastInDim S150000x1 ![0] bcast_S150000_S150000x1_0),
    ternary main_v74 main_v75 main_v72 main_v76 (Host.scatterAdd scatter_S100000x1280_S150000x1_S150000x1280_1_0_0_1),
    nullary main_cst_18 (constant S_ .f32 0x3F800000#32),
    unary main_cst_18 main_v77 (broadcastInDim S150000 ![] bcast_S_S150000),
    nullary main_cst_19 (constant S_ .f32 0x00000000#32),
    unary main_cst_19 main_v78 (broadcastInDim S100000 ![] bcast_S_S100000),
    unary main_v71 main_v79 (broadcastInDim S150000x1 ![0] bcast_S150000_S150000x1_0),
    ternary main_v78 main_v79 main_v77 main_v80 (Host.scatterAdd scatter_S100000_S150000x1_S150000_n_0_0_1),
    nullary main_cst_20 (constant S_ .f32 0x3F800000#32),
    unary main_cst_20 main_v81 (broadcastInDim S100000 ![] bcast_S_S100000),
    binary main_v80 main_v81 main_v82 maximumf,
    unary main_v82 main_v83 (broadcastInDim S100000x1 ![0] bcast_S100000_S100000x1_0),
    unary main_v83 main_v84 (broadcastInDim S100000x1280 ![0, 1] bcast_S100000x1_S100000x1280_0_1),
    binary main_v76 main_v84 main_v85 Host.divf,
    unary main_arg10 main_v86 ((transpose S1280x384 [1, 0] · transposes_S384x1280_S1280x384_1_0)),
    binary main_v85 main_v86 main_v87 (Host.dotGeneral dot_S100000x1280_S1280x384_S100000x384_1_0_0_1_n_n none),
    unary main_arg12 main_v88 (broadcastInDim S1x384 ![1] bcast_S384_S1x384_1),
    unary main_v88 main_v89 (broadcastInDim S100000x384 ![0, 1] bcast_S1x384_S100000x384_0_1),
    binary main_v87 main_v89 main_v90 addf,
    unary main_arg11 main_v91 ((transpose S128x384 [1, 0] · transposes_S384x128_S128x384_1_0)),
    binary main_v8 main_v91 main_v92 (Host.dotGeneral dot_S100000x128_S128x384_S100000x384_1_0_0_1_n_n none),
    unary main_arg13 main_v93 (broadcastInDim S1x384 ![1] bcast_S384_S1x384_1),
    unary main_v93 main_v94 (broadcastInDim S100000x384 ![0, 1] bcast_S1x384_S100000x384_0_1),
    binary main_v92 main_v94 main_v95 addf,
    unary main_v90 main_v96 ((extractStridedSlice S100000x128 ![0, 0] · slices_S100000x384_S100000x128_0_0)),
    unary main_v90 main_v97 ((extractStridedSlice S100000x128 ![0, 128] · slices_S100000x384_S100000x128_0_128)),
    unary main_v90 main_v98 ((extractStridedSlice S100000x128 ![0, 256] · slices_S100000x384_S100000x128_0_256)),
    unary main_v95 main_v99 ((extractStridedSlice S100000x128 ![0, 0] · slices_S100000x384_S100000x128_0_0)),
    unary main_v95 main_v100 ((extractStridedSlice S100000x128 ![0, 128] · slices_S100000x384_S100000x128_0_128)),
    unary main_v95 main_v101 ((extractStridedSlice S100000x128 ![0, 256] · slices_S100000x384_S100000x128_0_256)),
    binary main_v96 main_v99 main_v102 addf,
    unary main_v102 main_v103 Host.negf,
    unary main_v103 main_v104 Host.exp,
    nullary main_cst_21 (constant S_ .f32 0x3F800000#32),
    unary main_cst_21 main_v105 (broadcastInDim S100000x128 ![] bcast_S_S100000x128),
    binary main_v105 main_v104 main_v106 addf,
    nullary main_cst_22 (constant S_ .f32 0x3F800000#32),
    unary main_cst_22 main_v107 (broadcastInDim S100000x128 ![] bcast_S_S100000x128),
    binary main_v107 main_v106 main_v108 Host.divf,
    binary main_v97 main_v100 main_v109 addf,
    unary main_v109 main_v110 Host.negf,
    unary main_v110 main_v111 Host.exp,
    nullary main_cst_23 (constant S_ .f32 0x3F800000#32),
    unary main_cst_23 main_v112 (broadcastInDim S100000x128 ![] bcast_S_S100000x128),
    binary main_v112 main_v111 main_v113 addf,
    nullary main_cst_24 (constant S_ .f32 0x3F800000#32),
    unary main_cst_24 main_v114 (broadcastInDim S100000x128 ![] bcast_S_S100000x128),
    binary main_v114 main_v113 main_v115 Host.divf,
    binary main_v108 main_v101 main_v116 mulf,
    binary main_v98 main_v116 main_v117 addf,
    unary main_v117 main_v118 Host.tanh,
    nullary main_cst_25 (constant S_ .f32 0x3F800000#32),
    unary main_cst_25 main_v119 (broadcastInDim S100000x128 ![] bcast_S_S100000x128),
    binary main_v119 main_v115 main_v120 subf,
    binary main_v120 main_v118 main_v121 mulf,
    binary main_v115 main_v8 main_v122 mulf,
    binary main_v121 main_v122 main_v123 addf,
    binary main_v123 main_v17 main_v124 (catOut (F := F)),
    nullary main_c_26 (constantI S_ 32 0#32),
    unary main_c_26 main_v125 (broadcastInDim S100000 ![] bcast_S_S100000),
    nullary main_c_27 (constantI S_ 32 0#32),
    unary main_c_27 main_v126 (broadcastInDim S150000 ![] bcast_S_S150000),
    binary main_v64 main_v126 main_v127 (cmpi .slt),
    nullary main_c_28 (constantI S_ 32 100000#32),
    unary main_c_28 main_v128 (broadcastInDim S150000 ![] bcast_S_S150000),
    binary main_v64 main_v128 main_v129 addi,
    ternary main_v127 main_v129 main_v64 main_v130 select,
    unary main_v130 main_v131 (broadcastInDim S150000x1 ![0] bcast_S150000_S150000x1_0),
    ternary main_v125 main_v131 main_v73 main_v132 (Host.scatter scatter_S100000_S150000x1_S150000_n_0_0_1 IntOp.maxsi),
    nullary main_c_29 (constantI S_ 32 0#32),
    unary main_c_29 main_v133 (broadcastInDim S100000 ![] bcast_S_S100000),
    binary main_arg0 main_v133 main_v134 (cmpi .slt),
    nullary main_c_30 (constantI S_ 32 100000#32),
    unary main_c_30 main_v135 (broadcastInDim S100000 ![] bcast_S_S100000),
    binary main_arg0 main_v135 main_v136 addi,
    ternary main_v134 main_v136 main_arg0 main_v137 select,
    unary main_v137 main_v138 (broadcastInDim S100000x1 ![0] bcast_S100000_S100000x1_0),
    binary main_v132 main_v138 main_v139 (Host.gather gather_S100000_S100000x1_S100000_n_0_n_n_0_1_1) ]

set_option maxRecDepth 8192 in
set_option maxHeartbeats 4000000 in
theorem main_eq (c : Dev nD) : main (F := F) c = seq ops := rfl

set_option maxRecDepth 8192 in
theorem ops_sub : (ops : List (HloOp τ sig (Elt F))).Forall fun op => op.bufs ⊆ tcRefs τ sig := by
  simp only [List.Forall, nullary_bufs_sub, unary_bufs_sub, binary_bufs_sub, ternary_bufs_sub, nary_bufs_sub, and_self]

variable {x a b c d y : Ref sig .tc} (W : Valuation τ sig (Elt F))

-- an operation on a literal family of operands reads each operand at its own reference
theorem nary3_at (g : x.ty.Contents (Elt F) → a.ty.Contents (Elt F) → b.ty.Contents (Elt F) → y.ty.Contents (Elt F)) (hxs hy) :
    (nary ![x, a, b] y (fun u => g (u 0) (u 1) (u 2)) hxs hy).result W (no_index (y : DevRef τ sig)) = g (W x) (W a) (W b) :=
  nary_result ..

theorem nary5_at (g : x.ty.Contents (Elt F) → a.ty.Contents (Elt F) → b.ty.Contents (Elt F) → c.ty.Contents (Elt F) → d.ty.Contents (Elt F) → y.ty.Contents (Elt F)) (hxs hy) :
    (nary ![x, a, b, c, d] y (fun u => g (u 0) (u 1) (u 2) (u 3) (u 4)) hxs hy).result W (no_index (y : DevRef τ sig)) = g (W x) (W a) (W b) (W c) (W d) :=
  nary_result ..

macro "ref_results" : tactic =>
  `(tactic| (simp (disch := decide) only [after_cons, after_nil,
      nullary_result', unary_result', binary_result', ternary_result', nary3_at, nary5_at,
      nullary_result_ne', unary_result_ne', binary_result_ne', ternary_result_ne', nary_result_ne']))

set_option maxRecDepth 8192 in
set_option maxHeartbeats 4000000 in
theorem at_v124 : StableHlo.after ops W main_v124 = ReadP.val_main_v124 (F := F) (W main_arg0) (W main_arg1) (W main_arg2) (W main_arg3) (W main_arg4) (W main_arg5) (W main_arg6) (W main_arg7) (W main_arg8) (W main_arg9) (W main_arg10) (W main_arg11) (W main_arg12) (W main_arg13) := by
  ref_results
  rfl

set_option maxRecDepth 8192 in
set_option maxHeartbeats 4000000 in
theorem at_v139 : StableHlo.after ops W main_v139 = ReadP.val_main_v139 (F := F) (W main_arg0) (W main_arg1) (W main_arg2) (W main_arg3) (W main_arg4) := by
  ref_results
  rfl

abbrev args : List (Ref sig .tc) := [main_arg0, main_arg1, main_arg2, main_arg3, main_arg4, main_arg5, main_arg6, main_arg7, main_arg8, main_arg9, main_arg10, main_arg11, main_arg12, main_arg13]

-- an operation whose result is not in a list writes no buffer of the list
theorem not_written {A : List (Ref sig .tc)} (hy : y ∉ A) :
    ∀ r ∈ A, (r : DevRef τ sig) ∉ ({(y : DevRef τ sig)} : Finset (DevRef τ sig)) :=
  fun _ hr h => hy (Proc.devRef_injective _ (Finset.mem_singleton.1 h) ▸ hr)

set_option maxRecDepth 8192 in
theorem args_kept : (ops : List (HloOp τ sig (Elt F))).Forall fun op => ∀ r ∈ args, (r : DevRef τ sig) ∉ op.writes := by
  repeat' apply And.intro
  all_goals exact not_written (by decide)

set_option maxRecDepth 8192 in
theorem fresh_none : (ops : List (HloOp τ sig (Elt F))).Forall fun op => op.fresh = ∅ := by
  repeat' apply And.intro
  all_goals rfl

-- no operation writes an argument
theorem at_arg {r : Ref sig .tc} (hr : r ∈ args) : StableHlo.after ops W r = W r :=
  after_of_forall_not_mem ops W fun op hop => List.forall_iff_forall_mem.1 args_kept op hop r hr

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124) = ReadP.val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v139) = ReadP.val_main_v139 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c _).trans (at_v124 _), (h c _).trans (at_v139 _), by
      repeat' apply And.intro
      all_goals exact (h c _).trans (at_arg _ (by decide))⟩)
    (run_seq (by decide) (by decide) defs main (fun _ => ops) main_eq (fun _ => ops_sub) m ρ
      fun _ => List.forall_iff_forall_mem.1 fresh_none)

end Cert.ReferenceIdeal.RunCut
end
-- ==== Proof.LayoutReads.lean ====
import proofs.«408144_j33174327394705_3_alg».proof.KernelIdeal
import proofs.«408144_j33174327394705_3_alg».proof.ReferenceIdeal
import Idealize.ShloMosaic.PureOps.Ideal
import Idealize.ShloMosaic.Lib.ValueIdx
import Idealize.ShloMosaic.Lib.Pipeline.Value
noncomputable section
namespace Cert.Layout
open Idealize.ShloMosaic Idealize.ShloMosaic.ValueIdx
open Cert.ReferenceIdeal Facts₀

variable [Facts₀] [Cert.KernelIdeal.Facts₀]
variable {α : Type} {R K C : Nat} {sm : List (Fin 2)}

-- Joined along the columns, piece `k` starts at column `pre`.
theorem concat_cols {n0 N : Nat} (xs : List ((s : Shape) × (s.Idx → α)))
    (h : Shape.Concatenates (xs.map (·.1)) ⟨2, ![n0, N]⟩ 1)
    (k : Nat) (hk : k < xs.length) (n1 : Nat) (x : (⟨2, ![n0, n1]⟩ : Shape).Idx → α)
    (hxk : xs[k] = ⟨⟨2, ![n0, n1]⟩, x⟩) (pre : Nat)
    (hpre : (((xs.take k).map (·.1)).map fun s : Shape =>
      if h : s.rank = 2 then s.size ((1 : Fin 2).cast h.symm) else 0).sum = pre)
    (e : Fin n0) (c : Fin n1) (col : Fin N) (hc : pre + c.val = col.val) :
    concatenate ⟨2, ![n0, N]⟩ 1 xs h (ix2 e col) = x (ix2 e c) := by
  refine concatenate_apply_piece (t := ⟨2, ![n0, N]⟩) 1 xs h _ k hk ⟨2, ![n0, n1]⟩ x hxk rfl pre hpre (ix2 e c) ?_ hc
  intro b hb
  match b, hb with
  | ⟨0, _⟩, _ => rfl
  | ⟨1, _⟩, hb => exact absurd rfl hb

-- A gather of rows of the 100000 × 384 matrix: the row axis collapsed, `C` columns kept, start index map `sm`.
abbrev gDims (R K C : Nat) (sm : List (Fin 2))
    (wf : GatherDims.WF S100000x384 ⟨2, ![R, K]⟩ ⟨2, ![R, C]⟩ [1] [0] [] sm [] 1 ![1, C]) :
    GatherDims S100000x384 ⟨2, ![R, K]⟩ ⟨2, ![R, C]⟩ :=
  ⟨[1], [0], [], [], sm, 1, ![1, C], wf⟩

-- On an indexed axis the slice starts at the row's index word for that axis, clamped so that the slice fits.
theorem gStart (wf : GatherDims.WF S100000x384 ⟨2, ![R, K]⟩ ⟨2, ![R, C]⟩ [1] [0] [] sm [] 1 ![1, C])
    (idx : (⟨2, ![R, K]⟩ : Shape).Idx → BitVec 32) (n : Fin R) (j : Fin C) (c : Fin 2) (k : Fin K) (hc : c ∈ sm)
    (hi : sm.idxOf c = k.val) (B : Nat) (hB : S100000x384.size c - (![1, C] : Fin 2 → Nat) c = B) :
    (gDims R K C sm wf).start (ix2 n j) idx c = min (idx (ix2 n k)).toInt.toNat B := by
  subst hB
  unfold GatherDims.start
  rw [dif_pos hc]
  refine congrArg (fun i => min (idx i).toInt.toNat _) (funext fun b => Fin.ext ?_)
  match b with
  | ⟨0, _⟩ => rfl
  | ⟨1, _⟩ => exact hi

-- The entry read: row the start on axis 0, column the start on axis 1 plus the result's column.
theorem gather_at (wf : GatherDims.WF S100000x384 ⟨2, ![R, K]⟩ ⟨2, ![R, C]⟩ [1] [0] [] sm [] 1 ![1, C])
    (mem : S100000x384.Idx → α) (idx : (⟨2, ![R, K]⟩ : Shape).Idx → BitVec 32) (n : Fin R) (j : Fin C)
    (i : S100000x384.Idx) (h0 : (gDims R K C sm wf).start (ix2 n j) idx 0 = (i 0).val)
    (h1 : (gDims R K C sm wf).start (ix2 n j) idx 1 + j.val = (i 1).val) :
    Host.gather (gDims R K C sm wf) mem idx (ix2 n j) = mem i := by
  unfold Host.gather
  refine congrArg mem (funext fun a => Fin.ext ?_)
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    exact h0
  | ⟨1, _⟩ =>
    show GatherDims.start _ _ idx 1 + GatherDims.batchCoord _ _ 1 + GatherDims.offCoord _ _ 1 = _
    have ho : (gDims R K C sm wf).offCoord (ix2 n j) 1 = j.val := by
      unfold GatherDims.offCoord
      rw [dif_pos (show (1 : Fin 2) ∈ (gDims R K C sm wf).sKept from by show (1 : Fin 2) ∈ ([1] : List (Fin 2)); decide)]
      rfl
    rw [GatherDims.batchCoord_eq_zero _ _ _ List.not_mem_nil, ho]
    exact h1

theorem ids_column (h : S100000.BroadcastsInDim S100000x1 (![0] : Fin 1 → Fin S100000x1.rank))
    (w : S100000.Idx → BitVec 32) (n : Fin 100000) :
    broadcastInDim S100000x1 ![0] h w (ix2 n 0) = w (ix1 n) := by
  refine congrArg w (funext fun a => Fin.ext ?_)
  match a with
  | ⟨0, _⟩ => rfl

-- Gathering `C` columns from the column a constant word names reads the whole-row gather from that column on.
theorem gather_cols (wf : GatherDims.WF S100000x384 S100000x2 ⟨2, ![100000, C]⟩ [1] [0] [] [0, 1] [] 1 ![1, C])
    (mem : S100000x384.Idx → α) (w : S100000.Idx → BitVec 32) (cw : BitVec 32) (n : Fin 100000) (j : Fin C)
    (col : Fin 384) (h : min cw.toInt.toNat (384 - C) + j.val = col.val) :
    Host.gather (gDims 100000 2 C [0, 1] wf) mem
        (concatenate S100000x2 1
          [⟨S100000x1, broadcastInDim S100000x1 ![0] bcast_S100000_S100000x1_0 w⟩,
           ⟨S100000x1, broadcastInDim S100000x1 ![] bcast_S_S100000x1 (constantI S_ 32 cw)⟩]
          concatenates_S100000x1_S100000x1_S100000x2_d1)
        (ix2 n j)
      = Host.gather Cert.KernelIdeal.gather_S100000x384_S100000x1_S100000x384_1_0_n_n_0_1_1384 mem
        (broadcastInDim S100000x1 ![0] Cert.KernelIdeal.Facts₀.bcast_S100000_S100000x1_0 w) (ix2 n col) := by
  refine (gather_at wf mem _ n j (ix2 ⟨min (w (ix1 n)).toInt.toNat 99999, by omega⟩ col) ?_ ?_).trans
    (gather_at (R := 100000) (K := 1) (C := 384) (sm := [0])
      Cert.KernelIdeal.Facts₀.gather_S100000x384_S100000x1_S100000x384_1_0_n_n_0_1_1384_wf mem _ n col _ ?_ ?_).symm
  · rw [gStart wf _ n j 0 0 (by decide) rfl 99999 rfl, concat_cols _ _ 0 (by simp) 1 _ rfl 0 rfl n 0 0 rfl, ids_column]
  · rw [gStart wf _ n j 1 1 (by decide) rfl (384 - C) rfl, concat_cols _ _ 1 (by simp) 1 _ rfl 1 rfl n 0 1 rfl]
    exact h
  · rw [gStart _ _ n col 0 0 (by decide) rfl 99999 rfl, ids_column]
  · unfold GatherDims.start
    rw [dif_neg (by decide : ¬ (1 : Fin 2) ∈ ([0] : List (Fin 2)))]
    exact Nat.zero_add _

theorem state_gather (mem : S100000x384.Idx → α) (w : S100000.Idx → BitVec 32) (n : Fin 100000) (j : Fin 128) :
    Host.gather gather_S100000x384_S100000x2_S100000x128_1_0_n_n_01_1_1128 mem
        (concatenate S100000x2 1
          [⟨S100000x1, broadcastInDim S100000x1 ![0] bcast_S100000_S100000x1_0 w⟩,
           ⟨S100000x1, broadcastInDim S100000x1 ![] bcast_S_S100000x1 (constantI S_ 32 0#32)⟩]
          concatenates_S100000x1_S100000x1_S100000x2_d1)
        (ix2 n j)
      = Host.gather Cert.KernelIdeal.gather_S100000x384_S100000x1_S100000x384_1_0_n_n_0_1_1384 mem
        (broadcastInDim S100000x1 ![0] Cert.KernelIdeal.Facts₀.bcast_S100000_S100000x1_0 w)
        (ix2 n ⟨j.val, by omega⟩) :=
  gather_cols _ mem w _ n j _ (by show min 0 256 + j.val = j.val; omega)

theorem inventory_gather (mem : S100000x384.Idx → α) (w : S100000.Idx → BitVec 32) (n : Fin 100000) (j : Fin 256) :
    Host.gather gather_S100000x384_S100000x2_S100000x256_1_0_n_n_01_1_1256 mem
        (concatenate S100000x2 1
          [⟨S100000x1, broadcastInDim S100000x1 ![0] bcast_S100000_S100000x1_0 w⟩,
           ⟨S100000x1, broadcastInDim S100000x1 ![] bcast_S_S100000x1 (constantI S_ 32 128#32)⟩]
          concatenates_S100000x1_S100000x1_S100000x2_d1)
        (ix2 n j)
      = Host.gather Cert.KernelIdeal.gather_S100000x384_S100000x1_S100000x384_1_0_n_n_0_1_1384 mem
        (broadcastInDim S100000x1 ![0] Cert.KernelIdeal.Facts₀.bcast_S100000_S100000x1_0 w)
        (ix2 n ⟨128 + j.val, by omega⟩) :=
  gather_cols _ mem w _ n j _ (by show min 128 128 + j.val = 128 + j.val; omega)

theorem gather_rows_mem (mem : S100000x384.Idx → α) (idx : S50000x1.Idx → BitVec 32) (e : Fin 50000) (k : Fin 384) :
    ∃ i, Host.gather Cert.KernelIdeal.gather_S100000x384_S50000x1_S50000x384_1_0_n_n_0_1_1384 mem idx (ix2 e k) = mem i :=
  ⟨_, rfl⟩

theorem concat_state_inv (a : S100000x128.Idx → α) (b : S100000x256.Idx → α) (n : Fin 100000) (col : Fin 384) :
    concatenate S100000x384 1 [⟨S100000x128, a⟩, ⟨S100000x256, b⟩]
        concatenates_S100000x128_S100000x256_S100000x384_d1 (ix2 n col)
      = if h : col.val < 128 then a (ix2 n ⟨col.val, h⟩) else b (ix2 n ⟨col.val - 128, by omega⟩) := by
  split
  · next h => exact concat_cols _ _ 0 (by simp) 128 a rfl 0 rfl n ⟨col.val, h⟩ col (Nat.zero_add _)
  · next h =>
    exact concat_cols _ _ 1 (by simp) 256 b rfl 128 rfl n ⟨col.val - 128, by omega⟩ col
      (by show 128 + (col.val - 128) = col.val; omega)

variable (x1 x2 x3 : S50000x384.Idx → α) (x4 x5 : S50000x64.Idx → α) (e : Fin 50000)

theorem concat_msg_band1 (k : Fin 384) :
    concatenate S50000x1280 1 [⟨S50000x384, x1⟩, ⟨S50000x384, x2⟩, ⟨S50000x384, x3⟩, ⟨S50000x64, x4⟩, ⟨S50000x64, x5⟩]
        concatenates_S50000x384_S50000x384_S50000x384_S50000x64_S50000x64_S50000x1280_d1
        (ix2 e ⟨k.val, by omega⟩) = x1 (ix2 e k) :=
  concat_cols _ _ 0 (by simp) 384 x1 rfl 0 rfl e k _ (Nat.zero_add _)

theorem concat_msg_band2 (k : Fin 384) :
    concatenate S50000x1280 1 [⟨S50000x384, x1⟩, ⟨S50000x384, x2⟩, ⟨S50000x384, x3⟩, ⟨S50000x64, x4⟩, ⟨S50000x64, x5⟩]
        concatenates_S50000x384_S50000x384_S50000x384_S50000x64_S50000x64_S50000x1280_d1
        (ix2 e ⟨384 + k.val, by omega⟩) = x2 (ix2 e k) :=
  concat_cols _ _ 1 (by simp) 384 x2 rfl 384 rfl e k _ rfl

theorem concat_msg_band3 (k : Fin 384) :
    concatenate S50000x1280 1 [⟨S50000x384, x1⟩, ⟨S50000x384, x2⟩, ⟨S50000x384, x3⟩, ⟨S50000x64, x4⟩, ⟨S50000x64, x5⟩]
        concatenates_S50000x384_S50000x384_S50000x384_S50000x64_S50000x64_S50000x1280_d1
        (ix2 e ⟨768 + k.val, by omega⟩) = x3 (ix2 e k) :=
  concat_cols _ _ 2 (by simp) 384 x3 rfl 768 rfl e k _ rfl

theorem concat_msg_band4 (k : Fin 64) :
    concatenate S50000x1280 1 [⟨S50000x384, x1⟩, ⟨S50000x384, x2⟩, ⟨S50000x384, x3⟩, ⟨S50000x64, x4⟩, ⟨S50000x64, x5⟩]
        concatenates_S50000x384_S50000x384_S50000x384_S50000x64_S50000x64_S50000x1280_d1
        (ix2 e ⟨1152 + k.val, by omega⟩) = x4 (ix2 e k) :=
  concat_cols _ _ 3 (by simp) 64 x4 rfl 1152 rfl e k _ rfl

theorem concat_msg_band5 (k : Fin 64) :
    concatenate S50000x1280 1 [⟨S50000x384, x1⟩, ⟨S50000x384, x2⟩, ⟨S50000x384, x3⟩, ⟨S50000x64, x4⟩, ⟨S50000x64, x5⟩]
        concatenates_S50000x384_S50000x384_S50000x384_S50000x64_S50000x64_S50000x1280_d1
        (ix2 e ⟨1216 + k.val, by omega⟩) = x5 (ix2 e k) :=
  concat_cols _ _ 4 (by simp) 64 x5 rfl 1216 rfl e k _ rfl

-- Three copies of one 50000-row array stacked: row `r` is its row `r % 50000`.
theorem concat3_rows (h : Shape.Concatenates [⟨2, ![50000, C]⟩, ⟨2, ![50000, C]⟩, ⟨2, ![50000, C]⟩] ⟨2, ![150000, C]⟩ 0)
    (p : (⟨2, ![50000, C]⟩ : Shape).Idx → α) (r : Fin 150000) (c : Fin C) :
    concatenate ⟨2, ![150000, C]⟩ 0 [⟨⟨2, ![50000, C]⟩, p⟩, ⟨⟨2, ![50000, C]⟩, p⟩, ⟨⟨2, ![50000, C]⟩, p⟩] h (ix2 r c)
      = p (ix2 ⟨r.val % 50000, Nat.mod_lt _ (by decide)⟩ c) :=
  concatenate_ofFn_apply (t := ⟨2, ![150000, C]⟩) (s₁ := ⟨2, ![50000, C]⟩) 0 (fun _ : Fin 3 => p) h rfl 50000 rfl
    (ix2 r c) ⟨r.val / 50000, by omega⟩ rfl _ rfl fun b hb => by
      match b, hb with
      | ⟨0, _⟩, hb => exact absurd rfl hb
      | ⟨1, _⟩, _ => rfl

theorem concat3_rows_1280 (p : S50000x1280.Idx → α) (r : Fin 150000) (c : Fin 1280) :
    concatenate S150000x1280 0 [⟨S50000x1280, p⟩, ⟨S50000x1280, p⟩, ⟨S50000x1280, p⟩]
        concatenates_S50000x1280_S50000x1280_S50000x1280_S150000x1280_d0 (ix2 r c)
      = p (ix2 ⟨r.val % 50000, Nat.mod_lt _ (by decide)⟩ c) :=
  concat3_rows _ p r c

end Cert.Layout
end
-- ==== Proof.SpecCell.lean ====
import proofs.«408144_j33174327394705_3_alg».proof.Proof.Spec

noncomputable section

namespace Cert.Spec

open Idealize.ShloMosaic Idealize.ShloMosaic.ValueIdx

def gruCell (x h : Fin 384 → EReal) (s : EReal) (j : Fin 128) : EReal :=
  let q0 : Fin 384 := ⟨j.val, by omega⟩
  let q1 : Fin 384 := ⟨128 + j.val, by omega⟩
  let q2 : Fin 384 := ⟨256 + j.val, by omega⟩
  let r := Ideal.logistic (x q0 + h q0)
  let z := Ideal.logistic (x q1 + h q1)
  let cand := Ideal.tanh (x q2 + r * h q2)
  (one32 - z) * cand + z * s

theorem newStateAt_eq_gruCell (tot : Arr2 100000 384) (inv : Arr2 100000 1) (sel : Arr2 100000 384) (whh : Arr2 128 384)
    (bih bhh : Arr2 1 384) (n : Fin 100000) (j : Fin 128) :
    newStateAt tot inv sel whh bih bhh n j
      = gruCell (gateIn tot inv bih n) (gateHid sel whh bhh n) (sel (ix2 n ⟨j.val, by omega⟩)) j := rfl

end Cert.Spec

end
-- ==== Proof.RefMemory.lean ====
import proofs.«408144_j33174327394705_3_alg».proof.Proof.RefReadP
import proofs.«408144_j33174327394705_3_alg».proof.Proof.LayoutReads
import proofs.«408144_j33174327394705_3_alg».proof.Proof.SpecCell
import Idealize.ShloMosaic.PureOps.Ideal.Laws
noncomputable section
namespace Cert.ReferenceIdeal.RefValue
open Cert.ReferenceIdeal Cert.ReferenceIdeal.ReadP Idealize.ShloMosaic Idealize.ShloMosaic.ValueIdx
variable [Cert.ReferenceIdeal.Facts₀] [Cert.KernelIdeal.Facts₀] (x0 : Vec Ideal S100000 .i32) (x1 x2 x3 x4 : Vec Ideal S50000 .i32) (x5 : Vec Ideal S50000x64 .f32) (x6 : Vec Ideal S100000x384 .f32) (x7 : Vec Ideal S100000 .i32) (x8 : Vec Ideal S1x64 .f32) (x9 : Vec Ideal S64 .f32) (x10 : Vec Ideal S384x1280 .f32) (x11 : Vec Ideal S384x128 .f32) (x12 x13 : Vec Ideal S384 .f32)

theorem one32_eq : Ideal.ofBits .f32 0x3F800000#32 = 1 := IdealRules.sign_bit.ideal_onePat .f32

theorem idx96 (n : Fin 100000) (j : Fin 128) : idx_main_v96 (ix2 n j) = ix2 n (⟨j.val, by omega⟩ : Fin 384) := eq_ix2 _
theorem idx97 (n : Fin 100000) (j : Fin 128) : idx_main_v97 (ix2 n j) = ix2 n (⟨128 + j.val, by omega⟩ : Fin 384) := eq_ix2 _
theorem idx98 (n : Fin 100000) (j : Fin 128) : idx_main_v98 (ix2 n j) = ix2 n (⟨256 + j.val, by omega⟩ : Fin 384) := eq_ix2 _
theorem idx99 (n : Fin 100000) (j : Fin 128) : idx_main_v99 (ix2 n j) = ix2 n (⟨j.val, by omega⟩ : Fin 384) := eq_ix2 _
theorem idx100 (n : Fin 100000) (j : Fin 128) : idx_main_v100 (ix2 n j) = ix2 n (⟨128 + j.val, by omega⟩ : Fin 384) := eq_ix2 _
theorem idx101 (n : Fin 100000) (j : Fin 128) : idx_main_v101 (ix2 n j) = ix2 n (⟨256 + j.val, by omega⟩ : Fin 384) := eq_ix2 _

-- 1 / (1 + exp (-a)) is the logistic function
theorem logistic_spelled (a : EReal) :
    Ideal.div (Ideal.ofBits .f32 0x3F800000#32) (Ideal.ofBits .f32 0x3F800000#32 + Ideal.exp (-a)) = Ideal.logistic a := by
  rw [one32_eq]
  rfl

-- a state column of the new memory is the recurrent cell at the reference's own two pre-activation rows
theorem ref_state_entry (n : Fin 100000) (j : Fin 128) :
    val_main_v123 (F := Ideal) x0 x1 x2 x3 x4 x5 x6 x7 x8 x9 x10 x11 x12 x13 (ix2 n j)
      = Spec.gruCell (fun q => val_main_v90 (F := Ideal) x0 x1 x2 x3 x4 x5 x6 x7 x8 x9 x10 x12 (ix2 n q)) (fun q => val_main_v95 (F := Ideal) x0 x6 x11 x13 (ix2 n q))
          (val_main_v8 (F := Ideal) x0 x6 (ix2 n j)) j := by
  simp only [val_main_v123_apply, val_main_v122_apply, val_main_v121_apply, val_main_v120_apply, val_main_v119_apply,
    val_main_cst_25_apply, val_main_v118_apply, val_main_v117_apply, val_main_v116_apply, val_main_v115_apply,
    val_main_v114_apply, val_main_cst_24_apply, val_main_v113_apply, val_main_v112_apply, val_main_cst_23_apply,
    val_main_v111_apply, val_main_v110_apply, val_main_v109_apply, val_main_v108_apply, val_main_v107_apply,
    val_main_cst_22_apply, val_main_v106_apply, val_main_v105_apply, val_main_cst_21_apply, val_main_v104_apply,
    val_main_v103_apply, val_main_v102_apply, val_main_v101_apply, val_main_v100_apply, val_main_v99_apply,
    val_main_v98_apply, val_main_v97_apply, val_main_v96_apply, idx96, idx97, idx98, idx99, idx100, idx101,
    Ideal.hostDivf_def, Ideal.addf_def, Ideal.mulf_def, Ideal.subf_def, Ideal.hostUnary_exp_def,
    Ideal.hostUnary_tanh_def, Ideal.hostNegf_def, Ideal.negf_def, Ideal.ofBits_def, logistic_spelled]
  rfl

-- the new memory row is the new state followed by the kept inventory
theorem ref_mem_split (n : Fin 100000) (col : Fin 384) :
    val_main_v124 (F := Ideal) x0 x1 x2 x3 x4 x5 x6 x7 x8 x9 x10 x11 x12 x13 (ix2 n col)
      = if h : col.val < 128 then val_main_v123 (F := Ideal) x0 x1 x2 x3 x4 x5 x6 x7 x8 x9 x10 x11 x12 x13 (ix2 n ⟨col.val, h⟩)
        else val_main_v17 (F := Ideal) x0 x6 (ix2 n ⟨col.val - 128, by omega⟩) :=
  Layout.concat_state_inv _ _ n col

end Cert.ReferenceIdeal.RefValue
end
-- ==== Proof.Linearity.lean ====
import Idealize.ShloMosaic.PureOps.Ideal
import Mathlib.Data.EReal.Basic
import Mathlib.Algebra.BigOperators.Fin
import Mathlib.Algebra.BigOperators.Ring.Finset
import Mathlib.Tactic.Ring
import Mathlib.Tactic.Linarith
noncomputable section
namespace Cert.Linearity
open Idealize.ShloMosaic

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem count_real (J : Finset (Fin 150000)) :
    ∃ r : ℝ, ((0 : EReal) + ∑ _r ∈ J, (1 : EReal)) = (r : EReal) ∧ 0 ≤ r := by
  refine ⟨∑ _r ∈ J, (1 : ℝ), ?_, Finset.sum_nonneg fun _ _ => zero_le_one⟩
  rw [zero_add, coe_sum]
  simp only [EReal.coe_one]

theorem max_one_real (x : EReal) (hx : ∃ r : ℝ, x = (r : EReal) ∧ 0 ≤ r) :
    ∃ r : ℝ, max x 1 = (r : EReal) ∧ 1 ≤ r := by
  obtain ⟨r, rfl, _⟩ := hx
  refine ⟨max r 1, ?_, le_max_right _ _⟩
  rw [EReal.coe_strictMono.monotone.map_max, EReal.coe_one]

-- The 1280 columns are five bands of 384, 384, 384, 64 and 64 columns: a sum over them splits,
theorem sum_bands {α : Type*} [AddCommMonoid α] (f : Fin 1280 → α) :
    ∑ k : Fin 1280, f k
      = ((((∑ k : Fin 384, f ⟨k.val, by omega⟩) + ∑ k : Fin 384, f ⟨384 + k.val, by omega⟩)
          + ∑ k : Fin 384, f ⟨768 + k.val, by omega⟩) + ∑ k : Fin 64, f ⟨1152 + k.val, by omega⟩)
          + ∑ k : Fin 64, f ⟨1216 + k.val, by omega⟩ := by
  rw [Fin.sum_univ_add (a := 1216) (b := 64) f,
    Fin.sum_univ_add (a := 1152) (b := 64) fun i => f (Fin.castAdd 64 i),
    Fin.sum_univ_add (a := 768) (b := 384) fun i => f (Fin.castAdd 64 (Fin.castAdd 64 i)),
    Fin.sum_univ_add (a := 384) (b := 384) fun i => f (Fin.castAdd 64 (Fin.castAdd 64 (Fin.castAdd 384 i)))]
  rfl

-- and what holds on each band holds at every column.
theorem forall_bands (P : Fin 1280 → Prop)
    (h1 : ∀ k : Fin 384, P ⟨k.val, by omega⟩) (h2 : ∀ k : Fin 384, P ⟨384 + k.val, by omega⟩)
    (h3 : ∀ k : Fin 384, P ⟨768 + k.val, by omega⟩) (h4 : ∀ k : Fin 64, P ⟨1152 + k.val, by omega⟩)
    (h5 : ∀ k : Fin 64, P ⟨1216 + k.val, by omega⟩) : ∀ k, P k :=
  (Fin.forall_fin_add (m := 1216) (n := 64) P).2 ⟨(Fin.forall_fin_add (m := 1152) (n := 64) _).2
    ⟨(Fin.forall_fin_add (m := 768) (n := 384) _).2 ⟨(Fin.forall_fin_add (m := 384) (n := 384) _).2 ⟨h1, h2⟩, h3⟩, h4⟩, h5⟩

-- Over reals, dividing a sum by a count of at least one and then multiplying through a column is linear.
theorem mean_then_project_flat {ι κ ρ : Type*} [Fintype κ] (J : Finset ρ) (e : ρ → ι)
    (M : ι → κ → EReal) (W : κ → EReal)
    (hM : ∀ i k, ∃ r : ℝ, M i k = (r : EReal)) (hW : ∀ k, ∃ r : ℝ, W k = (r : EReal))
    (C : EReal) (hC : ∃ r : ℝ, C = (r : EReal) ∧ 1 ≤ r) :
    ∑ k, Ideal.div (0 + ∑ r ∈ J, M (e r) k) C * W k
      = (0 + ∑ r ∈ J, ∑ k, M (e r) k * W k) * Ideal.div 1 C := by
  choose Mr hMr using hM
  choose Wr hWr using hW
  obtain ⟨c, rfl, hc⟩ := hC
  have hc0 : c ≠ 0 := by linarith
  simp only [hMr, hWr, Ideal.div_coe hc0, zero_add, one_mul]
  simp only [← coe_sum, ← EReal.coe_mul]
  congr 1
  simp only [Finset.sum_mul]
  rw [Finset.sum_comm]
  refine Finset.sum_congr rfl fun r _ => Finset.sum_congr rfl fun k _ => by ring

theorem mean_then_project_eq (J : Finset (Fin 150000)) (e : Fin 150000 → Fin 50000)
    (a1 a2 a3 : Fin 50000 → Fin 384 → EReal) (a4 a5 : Fin 50000 → Fin 64 → EReal)
    (w1 w2 w3 : Fin 384 → EReal) (w4 w5 : Fin 64 → EReal)
    (M : Fin 50000 → Fin 1280 → EReal) (W : Fin 1280 → EReal)
    (hM1 : ∀ (i : Fin 50000) (k : Fin 384), M i ⟨k.val, by omega⟩ = a1 i k)
    (hM2 : ∀ (i : Fin 50000) (k : Fin 384), M i ⟨384 + k.val, by omega⟩ = a2 i k)
    (hM3 : ∀ (i : Fin 50000) (k : Fin 384), M i ⟨768 + k.val, by omega⟩ = a3 i k)
    (hM4 : ∀ (i : Fin 50000) (k : Fin 64), M i ⟨1152 + k.val, by omega⟩ = a4 i k)
    (hM5 : ∀ (i : Fin 50000) (k : Fin 64), M i ⟨1216 + k.val, by omega⟩ = a5 i k)
    (hW1 : ∀ k : Fin 384, W ⟨k.val, by omega⟩ = w1 k)
    (hW2 : ∀ k : Fin 384, W ⟨384 + k.val, by omega⟩ = w2 k)
    (hW3 : ∀ k : Fin 384, W ⟨768 + k.val, by omega⟩ = w3 k)
    (hW4 : ∀ k : Fin 64, W ⟨1152 + k.val, by omega⟩ = w4 k)
    (hW5 : ∀ k : Fin 64, W ⟨1216 + k.val, by omega⟩ = w5 k)
    (ha1 : ∀ i k, ∃ r : ℝ, a1 i k = (r : EReal)) (ha2 : ∀ i k, ∃ r : ℝ, a2 i k = (r : EReal))
    (ha3 : ∀ i k, ∃ r : ℝ, a3 i k = (r : EReal)) (ha4 : ∀ i k, ∃ r : ℝ, a4 i k = (r : EReal))
    (ha5 : ∀ i k, ∃ r : ℝ, a5 i k = (r : EReal))
    (hw1 : ∀ k, ∃ r : ℝ, w1 k = (r : EReal)) (hw2 : ∀ k, ∃ r : ℝ, w2 k = (r : EReal))
    (hw3 : ∀ k, ∃ r : ℝ, w3 k = (r : EReal)) (hw4 : ∀ k, ∃ r : ℝ, w4 k = (r : EReal))
    (hw5 : ∀ k, ∃ r : ℝ, w5 k = (r : EReal))
    (zero : EReal) (hzero : zero = 0)
    (C : EReal) (hC : ∃ r : ℝ, C = (r : EReal) ∧ 1 ≤ r)
    (one : EReal) (hone : one = 1) :
    ∑ k : Fin 1280, Ideal.div (zero + ∑ r ∈ J, M (e r) k) C * W k
      = (zero + ∑ r ∈ J, (((((∑ k : Fin 384, a1 (e r) k * w1 k) + ∑ k : Fin 384, a2 (e r) k * w2 k)
          + ∑ k : Fin 384, a3 (e r) k * w3 k) + ∑ k : Fin 64, a4 (e r) k * w4 k)
          + ∑ k : Fin 64, a5 (e r) k * w5 k)) * Ideal.div one C := by
  subst hzero hone
  have hMr : ∀ i k, ∃ r : ℝ, M i k = (r : EReal) := fun i => forall_bands _
    (by simpa only [hM1] using ha1 i) (by simpa only [hM2] using ha2 i) (by simpa only [hM3] using ha3 i)
    (by simpa only [hM4] using ha4 i) (by simpa only [hM5] using ha5 i)
  have hWr : ∀ k, ∃ r : ℝ, W k = (r : EReal) := forall_bands _
    (by simpa only [hW1] using hw1) (by simpa only [hW2] using hw2) (by simpa only [hW3] using hw3)
    (by simpa only [hW4] using hw4) (by simpa only [hW5] using hw5)
  refine (mean_then_project_flat J e M W hMr hWr C hC).trans
    (congrArg (fun z => (0 + z) * Ideal.div 1 C) (Finset.sum_congr rfl fun r _ => ?_))
  rw [sum_bands fun k => M (e r) k * W k]
  simp only [hM1, hM2, hM3, hM4, hM5, hW1, hW2, hW3, hW4, hW5]

end Cert.Linearity
-- ==== Proof.RefCounts.lean ====
import proofs.«408144_j33174327394705_3_alg».proof.Proof.RefReadP
import proofs.«408144_j33174327394705_3_alg».proof.Proof.Linearity
import Idealize.ShloMosaic.PureOps.Ideal.Laws
noncomputable section
namespace Cert.ReferenceIdeal.RefValue
open Cert.ReferenceIdeal Cert.ReferenceIdeal.ReadP Idealize.ShloMosaic Idealize.ShloMosaic.ValueIdx
variable [Cert.ReferenceIdeal.Facts₀] (x10 : Vec Ideal S384x1280 .f32) (x12 : Vec Ideal S384 .f32)

theorem weightT_entry (k : Fin 1280) (q : Fin 384) : val_main_v86 (F := Ideal) x10 (ix2 k q) = x10 (ix2 q k) :=
  (val_main_v86_apply x10 _).trans (congrArg x10 (eq_ix2 _))

theorem biasIn_entry (n : Fin 100000) (q : Fin 384) : val_main_v89 (F := Ideal) x12 (ix2 n q) = x12 (ix1 q) :=
  (val_main_v89_apply x12 _).trans ((val_main_v88_apply x12 _).trans (congrArg x12 (eq_ix1 _)))

-- a count of rows, or one if there are none, is a real number that is at least one
theorem count_ge_one_real (J : Finset (Fin 150000)) :
    ∃ r : ℝ, max ((Ideal.ofBits .f32 0x00000000#32 : EReal) + ∑ _r ∈ J, (Ideal.ofBits .f32 0x3F800000#32 : EReal))
      (Ideal.ofBits .f32 0x3F800000#32) = (r : EReal) ∧ 1 ≤ r := by
  have h1 : Ideal.ofBits .f32 0x3F800000#32 = (1 : EReal) := IdealRules.sign_bit.ideal_onePat .f32
  rw [Ideal.ofBits_zero_f32, h1]
  exact Linearity.max_one_real _ (Linearity.count_real _)

end Cert.ReferenceIdeal.RefValue
end
-- ==== Proof.RefMessages.lean ====
import proofs.«408144_j33174327394705_3_alg».proof.Proof.RefReadP
import Idealize.ShloMosaic.PureOps.Ideal.Laws
noncomputable section
namespace Cert.ReferenceIdeal.RefValue
open Cert.ReferenceIdeal Cert.ReferenceIdeal.ReadP Idealize.ShloMosaic Idealize.ShloMosaic.ValueIdx
variable [Cert.ReferenceIdeal.Facts₀] (x1 x4 : Vec Ideal S50000 .i32) (x7 : Vec Ideal S100000 .i32) (x8 : Vec Ideal S1x64 .f32) (x9 : Vec Ideal S64 .f32)

-- cos (Δt_e · ω_k + φ_k)
theorem timeFeat_entry (e : Fin 50000) (k : Fin 64) :
    val_main_v32 (F := Ideal) x1 x4 x7 x8 x9 (ix2 e k) = Ideal.cos (val_main_v26 (F := Ideal) x1 x4 x7 (ix1 e) * x8 (ix2 (0 : Fin 1) k) + x9 (ix1 k)) := by
  have h1 : idx_main_v27 (lidx_main_v28 (ix2 e k) (0 : Fin 1)) = ix1 e := eq_ix1 _
  have h2 : ridx_main_v28 (ix2 e k) (0 : Fin 1) = ix2 (0 : Fin 1) k := eq_ix2 _
  have h3 : idx_main_v29 (idx_main_v30 (ix2 e k)) = ix1 k := eq_ix1 _
  rw [val_main_v32_apply, val_main_v31_apply, val_main_v28_apply, val_main_v30_apply, val_main_v29_apply,
    Ideal.hostUnary_cos_def, Ideal.addf_def, Fin.sum_univ_one, val_main_v27_apply, h1, h2, h3]

-- the time gap is an integer read as a float, so the time features are cosines of real numbers
theorem band_real5 (hx8 : ∀ i, ∃ r : ℝ, x8 i = (r : EReal)) (hx9 : ∀ i, ∃ r : ℝ, x9 i = (r : EReal)) (e : Fin 50000) (k : Fin 64) :
    ∃ r : ℝ, val_main_v32 (F := Ideal) x1 x4 x7 x8 x9 (ix2 e k) = (r : EReal) := by
  have hg : val_main_v26 (F := Ideal) x1 x4 x7 (ix1 e) = (((val_main_v25 (F := Ideal) x1 x4 x7 (ix1 e)).toInt : ℝ) : EReal) := rfl
  obtain ⟨a, ha⟩ := hx8 (ix2 (0 : Fin 1) k)
  obtain ⟨b, hb⟩ := hx9 (ix1 k)
  rw [timeFeat_entry, hg, ha, hb, ← EReal.coe_mul, ← EReal.coe_add]
  exact ⟨_, Ideal.cos_coe _⟩

end Cert.ReferenceIdeal.RefValue
end
-- ==== Proof.SegIndex.lean ====
import proofs.«408144_j33174327394705_3_alg».proof.KernelIdeal
import proofs.«408144_j33174327394705_3_alg».proof.ReferenceIdeal
import Idealize.ShloMosaic.PureOps.Ideal
import Idealize.ShloMosaic.Lib.ValueIdx
import Idealize.ShloMosaic.Lib.StableHlo.Predicate
import Idealize.ShloMosaic.Lib.Affine
noncomputable section
namespace Cert.SegIndex
open Idealize.ShloMosaic Idealize.ShloMosaic.ValueIdx Cert.KernelIdeal

variable [Facts₀]
open Facts₀
variable (i : (⟨S100000x1, .i32⟩ : BufTy).Contents (Elt Ideal)) (j : (⟨S150000x1, .i32⟩ : BufTy).Contents (Elt Ideal))

def assocOf : (⟨S100000, .i32⟩ : BufTy).Contents (Elt Ideal) :=
  Host.scatter scatter_S100000_S100000x1_S100000_n_0_0_1 (fun _ b => b)
    (broadcastInDim S100000 ![] bcast_S_S100000 (constantI S_ 32 0#32)) i (iotaInDim S100000 32 0)

def segOf : (⟨S150000, .i32⟩ : BufTy).Contents (Elt Ideal) :=
  Host.gather gather_S100000_S150000x1_S150000_n_0_n_n_0_1_1 (assocOf i) j

-- An overwriting scatter keeps what holds of every operand entry and of every update: each step overwrites one entry or none.
theorem scatter_set_all {α : Type} {s si u : Shape} {w : Nat} (d : ScatterDims s si u) (P : α → Prop)
    (x : s.Idx → α) (idx : IVec si w) (upd : u.Idx → α) (hx : ∀ a, P (x a)) (hu : ∀ k, P (upd k)) :
    ∀ a, P (Host.scatter d (fun _ b => b) x idx upd a) := by
  unfold Host.scatter
  generalize List.finRange u.numel = l
  induction l generalizing x with
  | nil => exact hx
  | cons n l ih =>
    rw [List.foldl_cons]
    apply ih
    intro a
    cases d.resultIdx? (u.rowMajor.symm n) idx with
    | none => exact hx a
    | some i =>
      show P (if a = i then upd (u.rowMajor.symm n) else x a)
      split
      · exact hu _
      · exact hx a

-- Every entry of the table is zero or the word of a position below 100000, so its signed value is a node.
theorem assoc_nonneg (a : S100000.Idx) :
    0 ≤ (assocOf i a).toInt ∧ (assocOf i a).toInt < 100000 := by
  unfold assocOf
  refine scatter_set_all scatter_S100000_S100000x1_S100000_n_0_0_1
    (fun v : BitVec 32 => 0 ≤ v.toInt ∧ v.toInt < 100000) _ i _ ?_ ?_ a
  · intro b
    show 0 ≤ (0#32 : BitVec 32).toInt ∧ (0#32 : BitVec 32).toInt < 100000
    decide
  · intro k
    show 0 ≤ (BitVec.ofNat 32 (k 0).val).toInt ∧ (BitVec.ofNat 32 (k 0).val).toInt < 100000
    have : (k 0).val < 100000 := (k 0).isLt
    rw [StableHlo.Predicate.toInt_ofNat_small _ (by omega)]
    omega

theorem seg_nonneg (p : S150000.Idx) : 0 ≤ (segOf i j p).toInt ∧ (segOf i j p).toInt < 100000 :=
  assoc_nonneg i (gather_S100000_S150000x1_S150000_n_0_n_n_0_1_1.operandIdx p j)

theorem wrap_seg_eq :
    select (cmpi .slt (segOf i j) (broadcastInDim S150000 ![] bcast_S_S150000 (constantI S_ 32 0#32)))
      (addi (segOf i j) (broadcastInDim S150000 ![] bcast_S_S150000 (constantI S_ 32 100000#32))) (segOf i j) = segOf i j := by
  funext p
  show Scalar.select (IntOp.cmpi .slt (segOf i j p) (0#32 : BitVec 32)) _ (segOf i j p) = segOf i j p
  have hc : IntOp.cmpi .slt (segOf i j p) (0#32 : BitVec 32) = 0#1 := eq_zero_of_ne_one fun h => by
    have h1 := IntOp.cmpi_slt.1 h
    rw [BitVec.toInt_zero] at h1
    exact absurd h1 (not_lt.2 (seg_nonneg i j p).1)
  rw [hc, select_zero]

end Cert.SegIndex
end
-- ==== Proof.ScatterLand.lean ====
import proofs.«408144_j33174327394705_3_alg».proof.KernelIdeal
import proofs.«408144_j33174327394705_3_alg».proof.ReferenceIdeal
import Idealize.ShloMosaic.PureOps.Ideal
import Idealize.ShloMosaic.Lib.ValueIdx
noncomputable section
namespace Cert.Scatter
open Idealize.ShloMosaic Idealize.ShloMosaic.ValueIdx
open scoped BigOperators

variable {N R C w : Nat}

-- An update lands at `i` exactly when, on every axis, its signed start plus its window coordinate is `i`'s coordinate.
theorem resultIdx_iff {s si u : Shape} (d : ScatterDims s si u) (j : u.Idx) (idx : IVec si w) (i : s.Idx) :
    d.resultIdx? j idx = some i ↔ ∀ a, d.start j idx a + d.window j a = ((i a).val : Int) := by
  unfold ScatterDims.resultIdx?
  constructor
  · intro h a
    split at h
    · next hall =>
      have e : (d.start j idx a + d.window j a).toNat = (i a).val := congrArg (fun f => (f a).val) (Option.some.inj h)
      have := (hall a).1
      omega
    · exact absurd h (by simp)
  · intro h
    have hall : ∀ a, 0 ≤ d.start j idx a + d.window j a ∧ d.start j idx a + d.window j a < s.size a := fun a => by
      have := h a; have := (i a).isLt; omega
    rw [dif_pos hall]
    exact congrArg some (funext fun a => Fin.ext (by have := h a; show (d.start j idx a + d.window j a).toNat = _; omega))

-- Rows of `C` columns added into `N` rows: the column is kept, the row is the update row's index word.
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ :=
  ⟨[1], [0], [0], 1, wf⟩

theorem rows_resultIdx_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : (⟨2, ![N, C]⟩ : Shape).Idx) :
    (rowsDims N R C wf).resultIdx? j idx = some i ↔
      (idx (ix2 ⟨(j 0).val, idx2_lt0 j⟩ ⟨0, Nat.one_pos⟩)).toInt = ((i 0).val : Int) ∧ (j 1).val = (i 1).val := by
  have s0 : (rowsDims N R C wf).start j idx 0 = (idx (ix2 ⟨(j 0).val, idx2_lt0 j⟩ ⟨0, Nat.one_pos⟩)).toInt := by
    unfold ScatterDims.start
    rw [dif_pos (show (0 : Fin 2) ∈ (rowsDims N R C wf).scatterDimsToOperandDims from List.mem_singleton.mpr rfl)]
    refine congrArg (fun k => (idx k).toInt) (funext fun b => Fin.ext ?_)
    match b with
    | ⟨0, _⟩ => rfl
    | ⟨1, _⟩ => rfl
  have s1 : (rowsDims N R C wf).start j idx 1 = 0 := by
    unfold ScatterDims.start
    exact dif_neg (by decide : ¬ (1 : Fin 2) ∈ ([0] : List (Fin 2)))
  have w0 : (rowsDims N R C wf).window j 0 = 0 := by
    unfold ScatterDims.window
    exact dif_neg (by decide : ¬ (0 : Fin 2) ∈ (List.finRange 2).filter (fun a => a ∉ ([0] : List (Fin 2))))
  have w1 : (rowsDims N R C wf).window j 1 = (j 1).val := by
    unfold ScatterDims.window
    rw [dif_pos (show (1 : Fin 2) ∈ (rowsDims N R C wf).sKept from
      (by decide : (1 : Fin 2) ∈ (List.finRange 2).filter (fun a => a ∉ ([0] : List (Fin 2)))))]
    rfl
  rw [resultIdx_iff, Fin.forall_fin_two, s0, s1, w0, w1]
  omega

-- Scalars added into `N` entries: no column.
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ :=
  ⟨[], [0], [0], 1, wf⟩

theorem idx1_lt0 (j : (⟨1, ![R]⟩ : Shape).Idx) : (j 0).val < R := (j 0).isLt

theorem vec_resultIdx_iff (wf : ScatterDims.WF ⟨1, ![N]⟩ ⟨2, ![R, 1]⟩ ⟨1, ![R]⟩ [] [0] [0] 1)
    (j : (⟨1, ![R]⟩ : Shape).Idx) (idx : IVec ⟨2, ![R, 1]⟩ w) (i : (⟨1, ![N]⟩ : Shape).Idx) :
    (vecDims N R wf).resultIdx? j idx = some i ↔
      (idx (ix2 ⟨(j 0).val, idx1_lt0 j⟩ ⟨0, Nat.one_pos⟩)).toInt = ((i 0).val : Int) := by
  have s0 : (vecDims N R wf).start j idx 0 = (idx (ix2 ⟨(j 0).val, idx1_lt0 j⟩ ⟨0, Nat.one_pos⟩)).toInt := by
    unfold ScatterDims.start
    rw [dif_pos (show (0 : Fin 1) ∈ (vecDims N R wf).scatterDimsToOperandDims from List.mem_singleton.mpr rfl)]
    refine congrArg (fun k => (idx k).toInt) (funext fun b => Fin.ext ?_)
    match b with
    | ⟨0, _⟩ => rfl
    | ⟨1, _⟩ => rfl
  have w0 : (vecDims N R wf).window j 0 = 0 := by
    unfold ScatterDims.window
    exact dif_neg (by decide : ¬ (0 : Fin 1) ∈ (List.finRange 1).filter (fun a => a ∉ ([0] : List (Fin 1))))
  rw [resultIdx_iff, Fin.forall_fin_one, s0, w0]
  omega

theorem bcast_col_apply {α : Type} (h : (⟨1, ![R]⟩ : Shape).BroadcastsInDim ⟨2, ![R, 1]⟩ ![0]) (hR : ¬ R = 1)
    (seg : (⟨1, ![R]⟩ : Shape).Idx → α) (r : Fin R) :
    broadcastInDim ⟨2, ![R, 1]⟩ ![0] h seg (ix2 r ⟨0, Nat.one_pos⟩) = seg (ix1 r) := by
  unfold broadcastInDim
  refine congrArg seg (funext fun a => Fin.ext ?_)
  obtain rfl : a = 0 := Subsingleton.elim _ _
  have h1 : ¬ (⟨1, ![R]⟩ : Shape).size 0 = 1 := hR
  rw [dif_neg h1]
  rfl

-- The node an update row is added into: its index word read signed, when that is a node.
def land (seg : (⟨1, ![150000]⟩ : Shape).Idx → BitVec 32) (r : Fin 150000) : Option (Fin 100000) :=
  if h : 0 ≤ (seg (ix1 r)).toInt ∧ (seg (ix1 r)).toInt < 100000 then
    some ⟨(seg (ix1 r)).toInt.toNat, by omega⟩
  else none

theorem land_eq_some_iff (seg : (⟨1, ![150000]⟩ : Shape).Idx → BitVec 32) (r : Fin 150000) (n : Fin 100000) :
    land seg r = some n ↔ (seg (ix1 r)).toInt = (n.val : Int) := by
  unfold land
  have hn := n.isLt
  split
  · rw [Option.some.injEq, Fin.ext_iff]
    show (seg (ix1 r)).toInt.toNat = n.val ↔ _
    omega
  · exact ⟨fun h => absurd h (by simp), fun h => by omega⟩

theorem rows_land (wf : ScatterDims.WF ⟨2, ![100000, C]⟩ ⟨2, ![150000, 1]⟩ ⟨2, ![150000, C]⟩ [1] [0] [0] 1)
    (hb : (⟨1, ![150000]⟩ : Shape).BroadcastsInDim ⟨2, ![150000, 1]⟩ ![0])
    (x : (⟨2, ![100000, C]⟩ : Shape).Idx → EReal) (seg : (⟨1, ![150000]⟩ : Shape).Idx → BitVec 32)
    (upd : (⟨2, ![150000, C]⟩ : Shape).Idx → EReal) (n : Fin 100000) (q : Fin C) :
    Ideal.hostScatterAdd (rowsDims 100000 150000 C wf) x (broadcastInDim ⟨2, ![150000, 1]⟩ ![0] hb seg) upd (ix2 n q)
      = x (ix2 n q) + ∑ r ∈ Finset.univ.filter (fun r : Fin 150000 => land seg r = some n), upd (ix2 r q) := by
  unfold Ideal.hostScatterAdd
  refine congrArg (_ + ·) ?_
  have key : ∀ j, (rowsDims 100000 150000 C wf).resultIdx? j (broadcastInDim ⟨2, ![150000, 1]⟩ ![0] hb seg) = some (ix2 n q) ↔
      land seg ⟨(j 0).val, idx2_lt0 j⟩ = some n ∧ (j 1).val = q.val := fun j => by
    rw [rows_resultIdx_iff, bcast_col_apply _ (by omega), land_eq_some_iff]
    exact Iff.rfl
  have hq : ∀ j, j ∈ Finset.univ.filter (fun j => (rowsDims 100000 150000 C wf).resultIdx? j
      (broadcastInDim ⟨2, ![150000, 1]⟩ ![0] hb seg) = some (ix2 n q)) → j = ix2 ⟨(j 0).val, idx2_lt0 j⟩ q := fun j hj => by
    have h1 := ((key j).mp (Finset.mem_filter.mp hj).2).2
    funext a
    refine Fin.ext ?_
    match a with
    | ⟨0, _⟩ => rfl
    | ⟨1, _⟩ => exact h1
  refine Finset.sum_nbij' (fun j => (⟨(j 0).val, idx2_lt0 j⟩ : Fin 150000)) (fun r => ix2 r q) ?_ ?_ ?_ ?_ ?_
  · exact fun j hj => Finset.mem_filter.mpr ⟨Finset.mem_univ _, ((key j).mp (Finset.mem_filter.mp hj).2).1⟩
  · exact fun r hr => Finset.mem_filter.mpr ⟨Finset.mem_univ _, (key _).mpr ⟨(Finset.mem_filter.mp hr).2, rfl⟩⟩
  · exact fun j hj => (hq j hj).symm
  · exact fun r _ => rfl
  · exact fun j hj => congrArg upd (hq j hj)

theorem vec_land (wf : ScatterDims.WF ⟨1, ![100000]⟩ ⟨2, ![150000, 1]⟩ ⟨1, ![150000]⟩ [] [0] [0] 1)
    (hb : (⟨1, ![150000]⟩ : Shape).BroadcastsInDim ⟨2, ![150000, 1]⟩ ![0])
    (x : (⟨1, ![100000]⟩ : Shape).Idx → EReal) (seg : (⟨1, ![150000]⟩ : Shape).Idx → BitVec 32)
    (upd : (⟨1, ![150000]⟩ : Shape).Idx → EReal) (n : Fin 100000) :
    Ideal.hostScatterAdd (vecDims 100000 150000 wf) x (broadcastInDim ⟨2, ![150000, 1]⟩ ![0] hb seg) upd (ix1 n)
      = x (ix1 n) + ∑ r ∈ Finset.univ.filter (fun r : Fin 150000 => land seg r = some n), upd (ix1 r) := by
  unfold Ideal.hostScatterAdd
  refine congrArg (_ + ·) ?_
  have key : ∀ j, (vecDims 100000 150000 wf).resultIdx? j (broadcastInDim ⟨2, ![150000, 1]⟩ ![0] hb seg) = some (ix1 n) ↔
      land seg ⟨(j 0).val, idx1_lt0 j⟩ = some n := fun j => by
    rw [vec_resultIdx_iff, bcast_col_apply _ (by omega), land_eq_some_iff]
  have hq : ∀ j : (⟨1, ![150000]⟩ : Shape).Idx, j = ix1 ⟨(j 0).val, idx1_lt0 j⟩ := fun j => funext fun a => by
    match a with
    | ⟨0, _⟩ => rfl
  refine Finset.sum_nbij' (fun j => (⟨(j 0).val, idx1_lt0 j⟩ : Fin 150000)) (fun r => ix1 r) ?_ ?_ ?_ ?_ ?_
  · exact fun j hj => Finset.mem_filter.mpr ⟨Finset.mem_univ _, (key j).mp (Finset.mem_filter.mp hj).2⟩
  · exact fun r hr => Finset.mem_filter.mpr ⟨Finset.mem_univ _, (key _).mpr (Finset.mem_filter.mp hr).2⟩
  · exact fun j _ => (hq j).symm
  · exact fun r _ => rfl
  · exact fun j _ => congrArg upd (hq j)

section Kernel
open Cert.KernelIdeal Cert.KernelIdeal.Facts₀
variable [Facts₀]

theorem scatterAdd384_apply (x : S100000x384.Idx → EReal)
    (seg : (⟨1, ![150000]⟩ : Shape).Idx → BitVec 32) (upd : S150000x384.Idx → EReal)
    (n : Fin 100000) (q : Fin 384) :
    Host.scatterAdd (F := Ideal) (φ := .f32) scatter_S100000x384_S150000x1_S150000x384_1_0_0_1 x
        (broadcastInDim S150000x1 ![0] bcast_S150000_S150000x1_0 seg) upd
        (ix2 n q)
      = x (ix2 n q)
        + ∑ r ∈ Finset.univ.filter (fun r : Fin 150000 => land seg r = some n), upd (ix2 r q) :=
  rows_land scatter_S100000x384_S150000x1_S150000x384_1_0_0_1_wf _ x seg upd n q

theorem scatterAdd1_apply_kernel (x : S100000.Idx → EReal)
    (seg : (⟨1, ![150000]⟩ : Shape).Idx → BitVec 32) (upd : S150000.Idx → EReal)
    (n : Fin 100000) :
    Host.scatterAdd (F := Ideal) (φ := .f32) scatter_S100000_S150000x1_S150000_n_0_0_1 x
        (broadcastInDim S150000x1 ![0] bcast_S150000_S150000x1_0 seg) upd
        (ix1 n)
      = x (ix1 n)
        + ∑ r ∈ Finset.univ.filter (fun r : Fin 150000 => land seg r = some n), upd (ix1 r) :=
  vec_land scatter_S100000_S150000x1_S150000_n_0_0_1_wf _ x seg upd n

end Kernel

section Reference
open Cert.ReferenceIdeal Cert.ReferenceIdeal.Facts₀
variable [Facts₀]

theorem scatterAdd1280_apply (x : S100000x1280.Idx → EReal)
    (seg : (⟨1, ![150000]⟩ : Shape).Idx → BitVec 32) (upd : S150000x1280.Idx → EReal)
    (n : Fin 100000) (q : Fin 1280) :
    Host.scatterAdd (F := Ideal) (φ := .f32) scatter_S100000x1280_S150000x1_S150000x1280_1_0_0_1 x
        (broadcastInDim S150000x1 ![0] bcast_S150000_S150000x1_0 seg) upd
        (ix2 n q)
      = x (ix2 n q)
        + ∑ r ∈ Finset.univ.filter (fun r : Fin 150000 => land seg r = some n), upd (ix2 r q) :=
  rows_land scatter_S100000x1280_S150000x1_S150000x1280_1_0_0_1_wf _ x seg upd n q

theorem scatterAdd1_apply_ref (x : S100000.Idx → EReal)
    (seg : (⟨1, ![150000]⟩ : Shape).Idx → BitVec 32) (upd : S150000.Idx → EReal)
    (n : Fin 100000) :
    Host.scatterAdd (F := Ideal) (φ := .f32) scatter_S100000_S150000x1_S150000_n_0_0_1 x
        (broadcastInDim S150000x1 ![0] bcast_S150000_S150000x1_0 seg) upd
        (ix1 n)
      = x (ix1 n)
        + ∑ r ∈ Finset.univ.filter (fun r : Fin 150000 => land seg r = some n), upd (ix1 r) :=
  vec_land scatter_S100000_S150000x1_S150000_n_0_0_1_wf _ x seg upd n

end Reference

end Cert.Scatter
-- ==== Proof.KernelAggregate.lean ====
import proofs.«408144_j33174327394705_3_alg».proof.Proof.HostBetween
import proofs.«408144_j33174327394705_3_alg».proof.Proof.SegIndex
import proofs.«408144_j33174327394705_3_alg».proof.Proof.ScatterLand
import proofs.«408144_j33174327394705_3_alg».proof.Proof.LayoutReads
import Idealize.ShloMosaic.PureOps.Ideal
import Idealize.ShloMosaic.Lib.ValueIdx
import Idealize.ShloMosaic.Lib.Pipeline.Value
import Idealize.ShloMosaic.Lib.IdealHost
noncomputable section
namespace Cert.KernelIdeal.Terms
open Cert.KernelIdeal Cert.KernelIdeal.Host Idealize.ShloMosaic Idealize.ShloMosaic.ValueIdx
open scoped BigOperators

variable [Cert.KernelIdeal.Facts₀] [Cert.ReferenceIdeal.Facts₀]
open Cert.KernelIdeal.Facts₀
variable (a0 : IVec S100000 32) (a1 a2 a3 : IVec S50000 32)

def rowsOn (n : Fin 100000) : Finset (Fin 150000) :=
  Finset.univ.filter (fun r : Fin 150000 => Cert.Scatter.land (Host.segIds a0 a1 a2 a3) r = some n)

-- The segment ids are entries of the position table, never negative: wrapping them changes nothing.
theorem wrap150_segIds :
    Host.wrap150 (Host.segIds a0 a1 a2 a3) = Host.segIds a0 a1 a2 a3 :=
  Cert.SegIndex.wrap_seg_eq (Host.nodeIdx a0) (Host.idsIdx a1 a2 a3)

theorem tot_entry (P : (⟨S50000x384, .f32⟩ : BufTy).Contents (Elt Ideal)) (n : Fin 100000) (q : Fin 384) :
    (Host.scatterAdd scatter_S100000x384_S150000x1_S150000x384_1_0_0_1
      (broadcastInDim S100000x384 ![] bcast_S_S100000x384 (constant (F := Ideal) S_ .f32 0x00000000#32))
      (segIdx a0 a1 a2 a3)
      (concatenate S150000x384 0 [⟨S50000x384, P⟩, ⟨S50000x384, P⟩, ⟨S50000x384, P⟩] concatenates_S50000x384_S50000x384_S50000x384_S150000x384_d0)
      : Vec Ideal S100000x384 .f32) (ix2 n q)
    = (Ideal.ofBits .f32 0x00000000#32 : EReal)
      + ∑ r ∈ rowsOn a0 a1 a2 a3 n, P (ix2 ⟨r.val % 50000, Nat.mod_lt _ (by decide)⟩ q) := by
  unfold Host.segIdx
  rw [wrap150_segIds]
  refine (Cert.Scatter.scatterAdd384_apply _ (Host.segIds a0 a1 a2 a3) _ n q).trans ?_
  rw [broadcastInDim_scalar_apply, constant_apply]
  exact congrArg (_ + ·) (Finset.sum_congr rfl fun r _ => Cert.Layout.concat3_rows _ P r q)

theorem inv_entry (n : Fin 100000) :
    (shapeCast S100000x1
      (Host.divf (broadcastInDim S100000 ![] bcast_S_S100000 (constant (F := Ideal) S_ .f32 0x3F800000#32))
        (maximumf
          (Host.scatterAdd scatter_S100000_S150000x1_S150000_n_0_0_1
            (broadcastInDim S100000 ![] bcast_S_S100000 (constant (F := Ideal) S_ .f32 0x00000000#32))
            (segIdx a0 a1 a2 a3)
            (broadcastInDim S150000 ![] bcast_S_S150000 (constant (F := Ideal) S_ .f32 0x3F800000#32)))
          (broadcastInDim S100000 ![] bcast_S_S100000 (constant (F := Ideal) S_ .f32 0x3F800000#32))))
      shapeCasts_S100000_S100000x1 : Vec Ideal S100000x1 .f32) (ix2 n (0 : Fin 1))
    = Ideal.div (Ideal.ofBits .f32 0x3F800000#32 : EReal)
        (max ((Ideal.ofBits .f32 0x00000000#32 : EReal)
              + ∑ _r ∈ rowsOn a0 a1 a2 a3 n, (Ideal.ofBits .f32 0x3F800000#32 : EReal))
          (Ideal.ofBits .f32 0x3F800000#32 : EReal)) := by
  unfold Host.segIdx
  rw [wrap150_segIds]
  have hk : (S100000.rowMajor (ix1 n)).val = (S100000x1.rowMajor (ix2 n (0 : Fin 1))).val := by
    rw [Shape.rowMajor_val_one, Shape.rowMajor_val_two]
    show n.val = n.val * 1 + 0
    omega
  rw [shapeCast_apply _ _ (ix2 n (0 : Fin 1)) (ix1 n) hk, hostDivf_apply, maximumf_apply,
    Cert.Scatter.scatterAdd1_apply_kernel _ (Host.segIds a0 a1 a2 a3) _ n]
  simp only [broadcastInDim_scalar_apply, constant_apply]
  rfl

end Cert.KernelIdeal.Terms
end
-- ==== Proof.RefGate.lean ====
import proofs.«408144_j33174327394705_3_alg».proof.Proof.RefMemory
import proofs.«408144_j33174327394705_3_alg».proof.Proof.RefCounts
import proofs.«408144_j33174327394705_3_alg».proof.Proof.RefMessages
import proofs.«408144_j33174327394705_3_alg».proof.Proof.KernelAggregate
import proofs.«408144_j33174327394705_3_alg».proof.Proof.KernelTerms
import proofs.«408144_j33174327394705_3_alg».proof.Proof.Linearity
import Idealize.ShloMosaic.Lib.ValueLayout
noncomputable section
namespace Cert.ReferenceIdeal.RefValue
open Cert.ReferenceIdeal Cert.ReferenceIdeal.ReadP Idealize.ShloMosaic Idealize.ShloMosaic.ValueIdx KernelIdeal.Terms
variable [Cert.ReferenceIdeal.Facts₀] [Cert.KernelIdeal.Facts₀] (x0 : Vec Ideal S100000 .i32) (x1 x2 x3 x4 : Vec Ideal S50000 .i32) (x5 : Vec Ideal S50000x64 .f32) (x6 : Vec Ideal S100000x384 .f32) (x7 : Vec Ideal S100000 .i32) (x8 : Vec Ideal S1x64 .f32) (x9 : Vec Ideal S64 .f32) (x10 : Vec Ideal S384x1280 .f32) (x11 : Vec Ideal S384x128 .f32) (x12 x13 : Vec Ideal S384 .f32)

-- both programs form the time gap by the same operations; the kernel program lays it as a column
theorem gap_entry (e : Fin 50000) :
    val_main_v26 (F := Ideal) x1 x4 x7 (ix1 e) = KernelIdeal.Host.gapCol x7 x1 x4 (ix2 e (0 : Fin 1)) :=
  (shapeCast_apply _ _ (ix2 e (0 : Fin 1)) (ix1 e) (by
    rw [Shape.rowMajor_val_one, Shape.rowMajor_val_two]; exact (Nat.mul_one _).symm)).symm

-- a band of rows of the transposed weights reads the weights at the shifted column
theorem wband {m : ℕ} (o : ℕ) (h : KernelIdeal.S1280x384.Slices ![o, 0] ⟨2, ![m, 384]⟩) (k : Fin m) (q : Fin 384)
    (c : Fin 1280) (hc : c.val = o + k.val) :
    extractStridedSlice ⟨2, ![m, 384]⟩ ![o, 0] (KernelIdeal.Host.wT x10) h (ix2 k q) = x10 (ix2 q c) :=
  (slice2_axis0_eq o _ h k q).trans ((transpose_ix2_apply x10 _ _ _).trans (congrArg (fun c => x10 (ix2 q c)) (Fin.ext hc.symm)))

-- the mean message at a node: the messages of the rows landing on it, summed and divided by the larger of their number and one
theorem mean_msg_entry (n : Fin 100000) (k : Fin 1280) :
    val_main_v85 (F := Ideal) x0 x1 x2 x3 x4 x5 x6 x7 x8 x9 (ix2 n k)
      = Ideal.div ((Ideal.ofBits .f32 0x00000000#32 : EReal) + ∑ r ∈ rowsOn x0 x1 x2 x3 n,
            val_main_v54 (F := Ideal) x1 x2 x3 x4 x5 x6 x7 x8 x9 (ix2 ⟨r.val % 50000, Nat.mod_lt _ (by decide)⟩ k))
          (max ((Ideal.ofBits .f32 0x00000000#32 : EReal) + ∑ _r ∈ rowsOn x0 x1 x2 x3 n, (Ideal.ofBits .f32 0x3F800000#32 : EReal))
            (Ideal.ofBits .f32 0x3F800000#32)) := by
  rewrite [val_main_v85_apply, val_main_v84_apply, val_main_v83_apply, val_main_v82_apply, val_main_v81_apply,
    val_main_cst_20_apply, (eq_ix1 _ : idx_main_v83 (idx_main_v84 (ix2 n k)) = ix1 n)]
  exact congrArg₂ Ideal.div ((Scatter.scatterAdd1280_apply _ _ _ n k).trans
      (congrArg₂ (· + ·) rfl (Finset.sum_congr rfl fun r _ => Layout.concat3_rows_1280 _ r k)))
    (congrArg₂ max (Scatter.scatterAdd1_apply_ref _ _ _ n) rfl)

theorem lidx87 (n : Fin 100000) (q : Fin 384) (k : Fin 1280) : lidx_main_v87 (ix2 n q) k = ix2 n k := eq_ix2 _
theorem ridx87 (n : Fin 100000) (q : Fin 384) (k : Fin 1280) : ridx_main_v87 (ix2 n q) k = ix2 k q := eq_ix2 _

-- dividing by a real that is at least one distributes over finite sums: the projected mean is the scaled sum of the projections
theorem gateIn_eq (hx5 : ∀ i, ∃ r : ℝ, x5 i = (r : EReal)) (hx6 : ∀ i, ∃ r : ℝ, x6 i = (r : EReal)) (hx8 : ∀ i, ∃ r : ℝ, x8 i = (r : EReal)) (hx9 : ∀ i, ∃ r : ℝ, x9 i = (r : EReal)) (hx10 : ∀ i, ∃ r : ℝ, x10 i = (r : EReal)) (n : Fin 100000) (q : Fin 384) :
    val_main_v90 (F := Ideal) x0 x1 x2 x3 x4 x5 x6 x7 x8 x9 x10 x12 (ix2 n q) = Spec.gateIn (totK x0 x1 x2 x3 x4 x5 x6 x7 x8 x9 x10 x11 x12 x13) (invCountK x0 x1 x2 x3) (biasRowK x12) n q := by
  rw [val_main_v90_apply, val_main_v87_apply]
  unfold Spec.gateIn
  refine congrArg₂ (· + ·) ?_ ((biasIn_entry x12 n q).trans (shapeCast_a_1a_apply x12 _ 0 q).symm)
  refine Eq.trans ?_ (congrArg₂ (· * ·) (tot_entry x0 x1 x2 x3 _ n q) (inv_entry x0 x1 x2 x3 n)).symm
  simp only [projArrK_apply, lidx87, ridx87, mean_msg_entry, weightT_entry]
  refine (Linearity.mean_then_project_eq (rowsOn x0 x1 x2 x3 n) (fun r => ⟨r.val % 50000, Nat.mod_lt _ (by decide)⟩)
    (fun i k => val_main_v39 (F := Ideal) x1 x6 (ix2 i k)) (fun i k => val_main_v46 (F := Ideal) x2 x6 (ix2 i k))
    (fun i k => val_main_v53 (F := Ideal) x3 x6 (ix2 i k)) (fun i k => x5 (ix2 i k))
    (fun i k => val_main_v32 (F := Ideal) x1 x4 x7 x8 x9 (ix2 i k))
    (fun k => x10 (ix2 q (⟨k.val, by omega⟩ : Fin 1280))) (fun k => x10 (ix2 q (⟨384 + k.val, by omega⟩ : Fin 1280)))
    (fun k => x10 (ix2 q (⟨768 + k.val, by omega⟩ : Fin 1280))) (fun k => x10 (ix2 q (⟨1152 + k.val, by omega⟩ : Fin 1280)))
    (fun k => x10 (ix2 q (⟨1216 + k.val, by omega⟩ : Fin 1280)))
    (fun i k => val_main_v54 (F := Ideal) x1 x2 x3 x4 x5 x6 x7 x8 x9 (ix2 i k)) (fun k => x10 (ix2 q k))
    (fun i k => Layout.concat_msg_band1 _ _ _ _ _ i k) (fun i k => Layout.concat_msg_band2 _ _ _ _ _ i k)
    (fun i k => Layout.concat_msg_band3 _ _ _ _ _ i k) (fun i k => Layout.concat_msg_band4 _ _ _ _ _ i k)
    (fun i k => Layout.concat_msg_band5 _ _ _ _ _ i k)
    (fun _ => rfl) (fun _ => rfl) (fun _ => rfl) (fun _ => rfl) (fun _ => rfl)
    (fun _ _ => hx6 _) (fun _ _ => hx6 _) (fun _ _ => hx6 _) (fun _ _ => hx5 _) (band_real5 x1 x4 x7 x8 x9 hx8 hx9)
    (fun _ => hx10 _) (fun _ => hx10 _) (fun _ => hx10 _) (fun _ => hx10 _) (fun _ => hx10 _)
    _ Ideal.ofBits_zero_f32 _ (count_ge_one_real _) _ one32_eq).trans ?_
  refine congrArg₂ (· * ·) (congrArg₂ (· + ·) rfl (Finset.sum_congr rfl fun r _ => ?_)) rfl
  unfold projK Spec.edgeProjAt
  refine congrArg₂ (· + ·) (congrArg₂ (· + ·) (congrArg₂ (· + ·) (congrArg₂ (· + ·) ?_ ?_) ?_) ?_) ?_ <;>
    refine Finset.sum_congr rfl fun k _ => ?_
  · exact congrArg₂ (· * ·) rfl (wband x10 0 KernelIdeal.Gen.slices_S1280x384_S384x384_0_0 k q _ (Nat.zero_add _).symm).symm
  · exact congrArg₂ (· * ·) rfl (wband x10 384 KernelIdeal.Gen.slices_S1280x384_S384x384_384_0 k q _ rfl).symm
  · exact congrArg₂ (· * ·) rfl (wband x10 768 KernelIdeal.Gen.slices_S1280x384_S384x384_768_0 k q _ rfl).symm
  · exact congrArg₂ (· * ·) rfl (wband x10 1152 KernelIdeal.Gen.slices_S1280x384_S64x384_1152_0 k q _ rfl).symm
  · rw [timeFeat_entry, gap_entry]
    exact congrArg₂ (· * ·) (congrArg Ideal.cos (congrArg₂ (· + ·) rfl (shapeCast_a_1a_apply x9 _ 0 k).symm))
      (wband x10 1216 KernelIdeal.Gen.slices_S1280x384_S64x384_1216_0 k q _ rfl).symm

end Cert.ReferenceIdeal.RefValue
end
-- ==== Proof.RefHidden.lean ====
import proofs.«408144_j33174327394705_3_alg».proof.Proof.RefMemory
import proofs.«408144_j33174327394705_3_alg».proof.Proof.KernelTerms
import Idealize.ShloMosaic.Lib.ValueLayout
noncomputable section
namespace Cert.ReferenceIdeal.RefValue
open Cert.ReferenceIdeal Cert.ReferenceIdeal.ReadP Idealize.ShloMosaic Idealize.ShloMosaic.ValueIdx KernelIdeal.Terms
variable [Cert.ReferenceIdeal.Facts₀] [Cert.KernelIdeal.Facts₀] (x0 : Vec Ideal S100000 .i32) (x6 : Vec Ideal S100000x384 .f32) (x11 : Vec Ideal S384x128 .f32) (x13 : Vec Ideal S384 .f32)

-- the reference reads the state and the inventory columns of a node's memory row by two gathers, the kernel program the whole row by one
theorem state_entry (n : Fin 100000) (j : Fin 128) :
    val_main_v8 (F := Ideal) x0 x6 (ix2 n j) = oldRowsK x0 x6 (ix2 n ⟨j.val, by omega⟩) :=
  Layout.state_gather x6 _ n j

theorem inventory_entry (n : Fin 100000) (j : Fin 256) :
    val_main_v17 (F := Ideal) x0 x6 (ix2 n j) = oldRowsK x0 x6 (ix2 n ⟨128 + j.val, by omega⟩) :=
  Layout.inventory_gather x6 _ n j

theorem lidx92 (n : Fin 100000) (q : Fin 384) (k : Fin 128) : lidx_main_v92 (ix2 n q) k = ix2 n k := eq_ix2 _
theorem ridx92 (n : Fin 100000) (q : Fin 384) (k : Fin 128) : ridx_main_v92 (ix2 n q) k = ix2 k q := eq_ix2 _

-- the same state entries through the same transposed weights, plus the same bias
theorem hidden_eq (n : Fin 100000) (q : Fin 384) :
    val_main_v95 (F := Ideal) x0 x6 x11 x13 (ix2 n q) = Spec.gateHid (oldRowsK x0 x6) (hidWK x11) (biasRowK x13) n q := by
  rw [val_main_v95_apply, val_main_v92_apply]
  unfold Spec.gateHid
  refine congrArg₂ (· + ·) (Finset.sum_congr rfl fun k _ => ?_) ((val_main_v94_apply x13 _).trans
    ((val_main_v93_apply x13 _).trans ((congrArg x13 (eq_ix1 _)).trans (shapeCast_a_1a_apply x13 _ 0 q).symm)))
  rw [lidx92, ridx92, state_entry x0 x6 n k]
  rfl

end Cert.ReferenceIdeal.RefValue
end
-- ==== Proof.RefFinal.lean ====
import proofs.«408144_j33174327394705_3_alg».proof.Proof.RefGate
import proofs.«408144_j33174327394705_3_alg».proof.Proof.RefHidden
noncomputable section
namespace Cert.ReferenceIdeal.RefValue
open Cert.ReferenceIdeal Cert.ReferenceIdeal.ReadP Idealize.ShloMosaic Idealize.ShloMosaic.ValueIdx KernelIdeal.Terms
variable [Cert.ReferenceIdeal.Facts₀] [Cert.KernelIdeal.Facts₀] (x0 : Vec Ideal S100000 .i32) (x1 x2 x3 x4 : Vec Ideal S50000 .i32) (x5 : Vec Ideal S50000x64 .f32) (x6 : Vec Ideal S100000x384 .f32) (x7 : Vec Ideal S100000 .i32) (x8 : Vec Ideal S1x64 .f32) (x9 : Vec Ideal S64 .f32) (x10 : Vec Ideal S384x1280 .f32) (x11 : Vec Ideal S384x128 .f32) (x12 x13 : Vec Ideal S384 .f32)
  (hx5 : ∀ i, ∃ r : ℝ, x5 i = (r : EReal)) (hx6 : ∀ i, ∃ r : ℝ, x6 i = (r : EReal)) (hx8 : ∀ i, ∃ r : ℝ, x8 i = (r : EReal)) (hx9 : ∀ i, ∃ r : ℝ, x9 i = (r : EReal)) (hx10 : ∀ i, ∃ r : ℝ, x10 i = (r : EReal))
include hx5 hx6 hx8 hx9 hx10

-- a state column is the recurrent cell on both sides, at equal pre-activations and equal old state; an inventory column is the same gathered entry
theorem ref_mem_entry (n : Fin 100000) (col : Fin 384) :
    val_main_v124 (F := Ideal) x0 x1 x2 x3 x4 x5 x6 x7 x8 x9 x10 x11 x12 x13 (ix2 n col) = memK x0 x1 x2 x3 x4 x5 x6 x7 x8 x9 x10 x11 x12 x13 n col := by
  unfold memK Spec.memRowAt
  rw [ref_mem_split]
  by_cases h : col.val < 128
  · rw [dif_pos h, dif_pos h, Spec.newStateAt_eq_gruCell, ref_state_entry, funext (gateIn_eq x0 x1 x2 x3 x4 x5 x6 x7 x8 x9 x10 x11 x12 x13 hx5 hx6 hx8 hx9 hx10 n),
      funext (hidden_eq x0 x6 x11 x13 n), state_entry]
  · rw [dif_neg h, dif_neg h, inventory_entry]
    exact congrArg (fun c => oldRowsK x0 x6 (ix2 n c)) (Fin.ext (by show 128 + (col.val - 128) = col.val; omega))

theorem ref_mem : val_main_v124 (F := Ideal) x0 x1 x2 x3 x4 x5 x6 x7 x8 x9 x10 x11 x12 x13 = memArrK x0 x1 x2 x3 x4 x5 x6 x7 x8 x9 x10 x11 x12 x13 :=
  funext fun i => (congrArg (val_main_v124 (F := Ideal) x0 x1 x2 x3 x4 x5 x6 x7 x8 x9 x10 x11 x12 x13) (eq_ix2 i)).trans
    (ref_mem_entry x0 x1 x2 x3 x4 x5 x6 x7 x8 x9 x10 x11 x12 x13 hx5 hx6 hx8 hx9 hx10 (i 0) (i 1))

end Cert.ReferenceIdeal.RefValue
end
-- ==== Proof.SharedIndex.lean ====
import proofs.«408144_j33174327394705_3_alg».proof.Proof.RefReadP
import proofs.«408144_j33174327394705_3_alg».proof.Proof.HostBetween
noncomputable section
namespace Cert.ReferenceIdeal.RefValue
open Cert.ReferenceIdeal Cert.ReferenceIdeal.ReadP Idealize.ShloMosaic Idealize.ShloMosaic.ValueIdx
variable [Cert.ReferenceIdeal.Facts₀] [Cert.KernelIdeal.Facts₀] (x0 : Vec Ideal S100000 .i32) (x1 x2 x3 x4 : Vec Ideal S50000 .i32)

-- both programs fold the time stamps by maximum at the same wrapped ids and read the result at the same wrapped node ids
theorem ref_lastUpd_eq :
    val_main_v139 (F := Ideal) x0 x1 x2 x3 x4
      = Host.gather KernelIdeal.gather_S100000_S100000x1_S100000_n_0_n_n_0_1_1
          (Host.scatter KernelIdeal.scatter_S100000_S150000x1_S150000_n_0_0_1 IntOp.maxsi
            (broadcastInDim KernelIdeal.S100000 ![] KernelIdeal.Gen.bcast_S_S100000 (constantI KernelIdeal.S_ 32 0#32))
            (KernelIdeal.Host.idsIdx x1 x2 x3) (KernelIdeal.Host.cat3 x4 x4 x4))
          (KernelIdeal.Host.nodeIdx x0) := rfl

end Cert.ReferenceIdeal.RefValue
end
-- ==== Proof.Finite.lean ====
import proofs.«408144_j33174327394705_3_alg».proof.Defs
import proofs.«408144_j33174327394705_3_alg».proof.Proof.Gen.Pre_finite_inputs
import Idealize.ShloMosaic.PureOps.Ideal
import Idealize.ShloMosaic.Lib.ValueIdx
import Idealize.ShloMosaic.Lib.ReduceAll
noncomputable section
namespace Cert.Finite
open Idealize.ShloMosaic Idealize.ShloMosaic.ValueIdx

-- At `⊥` and at `⊤` the absolute value `max x (-x)` is `⊤`, which is not below `⊤`.
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [show Ideal.ofBits .f32 0x7F800000#32 = (⊤ : EReal) by simp [Ideal.ofBits, Ideal.ieee]] at h'
  induction x using EReal.rec with
  | bot => simp [Ideal.cmp] at h'
  | coe r => exact ⟨r, rfl⟩
  | top => simp [Ideal.cmp] at h'

instance : Subsingleton (⟨0, ![]⟩ : Shape).Idx := ⟨fun a b => funext fun d => d.elim0⟩

theorem real_of_all {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) :
    ∀ i, ∃ r : ℝ, x i = (r : EReal) := fun i =>
  real_of_abs_lt (x i) (Host.reduce_andi_all _ _ hr hu ix0 e i)

variable [Cert.Pre_finite_inputs.Facts]

open Cert.KernelIdeal in
theorem real_of_pre (m : (ℓ : Loc nD τ sig) → Buf (Elt Ideal) ℓ)
    (h : Cert.Pre_KernelIdeal m) (c : Dev nD) :
    (∀ i : S50000x64.Idx, ∃ r : ℝ, (m ((c.tc : Thread nD τ).loc main_arg5) : FVec Ideal S50000x64 .f32) i = (r : EReal))
    ∧ (∀ i : S100000x384.Idx, ∃ r : ℝ, (m ((c.tc : Thread nD τ).loc main_arg6) : FVec Ideal S100000x384 .f32) i = (r : EReal))
    ∧ (∀ i : S1x64.Idx, ∃ r : ℝ, (m ((c.tc : Thread nD τ).loc main_arg8) : FVec Ideal S1x64 .f32) i = (r : EReal))
    ∧ (∀ i : S64.Idx, ∃ r : ℝ, (m ((c.tc : Thread nD τ).loc main_arg9) : FVec Ideal S64 .f32) i = (r : EReal))
    ∧ (∀ i : S384x1280.Idx, ∃ r : ℝ, (m ((c.tc : Thread nD τ).loc main_arg10) : FVec Ideal S384x1280 .f32) i = (r : EReal))
    ∧ (∀ i : S384x128.Idx, ∃ r : ℝ, (m ((c.tc : Thread nD τ).loc main_arg11) : FVec Ideal S384x128 .f32) i = (r : EReal))
    ∧ (∀ i : S384.Idx, ∃ r : ℝ, (m ((c.tc : Thread nD τ).loc main_arg12) : FVec Ideal S384 .f32) i = (r : EReal))
    ∧ (∀ i : S384.Idx, ∃ r : ℝ, (m ((c.tc : Thread nD τ).loc main_arg13) : FVec Ideal S384 .f32) i = (r : EReal)) := by
  have h0 := congrFun (h c) ix0
  dsimp only [Cert.Pre_finite_inputs.fn, Cert.Pre_finite_inputs.fn_part1, Cert.Pre_finite_inputs.fn_part2] at h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h5, h6⟩ := IntOp.andi_eq_one.1 h0
  exact ⟨real_of_all _ _ _ _ h5, real_of_all _ _ _ _ h6, real_of_all _ _ _ _ h8, real_of_all _ _ _ _ h9,
    real_of_all _ _ _ _ h10, real_of_all _ _ _ _ h11, real_of_all _ _ _ _ h12, real_of_all _ _ _ _ h13⟩

end Cert.Finite
end
-- ==== Proof.lean ====
import proofs.«408144_j33174327394705_3_alg».proof.Defs
import proofs.«408144_j33174327394705_3_alg».proof.Proof.Gen.Kernel
import proofs.«408144_j33174327394705_3_alg».proof.Proof.Gen.KernelIdeal
import proofs.«408144_j33174327394705_3_alg».proof.Proof.Gen.ReferenceIdeal
import proofs.«408144_j33174327394705_3_alg».proof.Proof.Gen.Pre_finite_inputs
import proofs.«408144_j33174327394705_3_alg».proof.Proof.MainRunW
import proofs.«408144_j33174327394705_3_alg».proof.Proof.KernelValue
import proofs.«408144_j33174327394705_3_alg».proof.Proof.RefRunCut
import proofs.«408144_j33174327394705_3_alg».proof.Proof.RefFinal
import proofs.«408144_j33174327394705_3_alg».proof.Proof.SharedIndex
import proofs.«408144_j33174327394705_3_alg».proof.Proof.Finite
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Frame.frame (F := Bits) m ρ

theorem frame_ki : Cert.frame_KernelIdeal := fun m ρ _ => Cert.KernelIdeal.Frame.frame (F := Ideal) m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RunCut.run (F := Ideal) m ρ)

theorem preserves : Cert.preserves_Kernel_KernelIdeal := trivial

/-- Both runs end at closed terms of the shared arguments: the memory matrix agrees by linearity of the projection over
    finite inputs, the last-update vector term for term. -/
theorem algebraic : Cert.algebraic_KernelIdeal_ReferenceIdeal := by
  intro m g m' g' hpre hagree
  refine ⟨_, _, Cert.KernelIdeal.Frame.kernel_run m g, ?_⟩
  refine (θ_run (Cert.ReferenceIdeal.defs (F := Ideal)) _ _).mono (fun r h c => ?_) (Cert.ReferenceIdeal.RunCut.run (F := Ideal) m' g')
  obtain ⟨h124, h139, hargs⟩ := h c
  obtain ⟨e0, e1, e2, e3, e4, e5, e6, e7, e8, e9, e10, e11, e12, e13⟩ := hagree c
  obtain ⟨r5, r6, r8, r9, r10, _, _, _⟩ := Cert.Finite.real_of_pre m hpre c
  refine ⟨?_, ?_, hargs⟩
  · rw [h124, e0, e1, e2, e3, e4, e5, e6, e7, e8, e9, e10, e11, e12, e13]
    exact Cert.ReferenceIdeal.RefValue.ref_mem _ _ _ _ _ _ _ _ _ _ _ _ _ _ r5 r6 r8 r9 r10
  · rw [h139, e0, e1, e2, e3, e4]
    exact (Cert.ReferenceIdeal.RefValue.ref_lastUpd_eq _ _ _ _ _).trans rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
